-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S1x1 : Shape := ⟨2, ![1, 1]⟩
abbrev S1024x256 : Shape := ⟨2, ![1024, 256]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩
abbrev S_ : Shape := ⟨0, ![]⟩

abbrev nBuf : Space → Nat
  | .hbm => 18
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1x1, .f32⟩
  | .local _ .vmem, ⟨4, _⟩ => ⟨S1x1, .f32⟩
  | .local _ .vmem, ⟨5, _⟩ => ⟨S1024x256, .f32⟩
  | .local _ .vmem, ⟨6, _⟩ => ⟨S1024x256, .f32⟩
  | .local _ .vmem, ⟨7, _⟩ => ⟨S8192x256, .f32⟩
  | .local _ .vmem, ⟨8, _⟩ => ⟨S1x1, .f32⟩
  | .local _ .vmem, ⟨9, _⟩ => ⟨S1x1, .f32⟩
  | .local _ .vmem, ⟨10, _⟩ => ⟨S1024x256, .f32⟩
  | .local _ .vmem, ⟨11, _⟩ => ⟨S1024x256, .f32⟩
  | .local _ .vmem, ⟨12, _⟩ => ⟨S8192x256, .f32⟩
  | .local _ .vmem, ⟨13, _⟩ => ⟨S1x1, .f32⟩
  | .local _ .vmem, ⟨14, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c8_i32 : BitVec 32 := 8#32
  let v8 : BitVec 32 := Scalar.addi c0_i32_2 c8_i32
  let c1_i32 : BitVec 32 := 1#32
  ⟨c0_i32_2, v8, c1_i32⟩
def k0_mult1 (k0_t1 : Fin k0_t1_loop.trips) : BitVec 32 :=
  let c0_i32_6 : BitVec 32 := 0#32
  let c0_i32_2 : BitVec 32 := 0#32
  let c1_i32 : BitVec 32 := 1#32
  let arg5 : BitVec 32 := Scf.iv c0_i32_2 c1_i32 k0_t1
  let c1_i32_5 : BitVec 32 := 1#32
  let v12 : BitVec 32 := Scalar.muli arg5 c1_i32_5
  let v13 : BitVec 32 := Scalar.addi c0_i32_6 v12
  let c1024_i32 : BitVec 32 := 1024#32
  let v14 : BitVec 32 := Scalar.muli v13 c1024_i32
  v14
def k0_off1 (k0_t1 : Fin k0_t1_loop.trips) : Fin 2 → Nat :=
  let c0_i32_6 : BitVec 32 := 0#32
  let c0_i32_2 : BitVec 32 := 0#32
  let c1_i32 : BitVec 32 := 1#32
  let arg5 : BitVec 32 := Scf.iv c0_i32_2 c1_i32 k0_t1
  let c1_i32_5 : BitVec 32 := 1#32
  let v12 : BitVec 32 := Scalar.muli arg5 c1_i32_5
  let v13 : BitVec 32 := Scalar.addi c0_i32_6 v12
  let c1024_i32 : BitVec 32 := 1024#32
  let v14 : BitVec 32 := Scalar.muli v13 c1024_i32
  let v15 : BitVec 32 := v14
  let v16 : Index := Scalar.indexCast v15
  let c0_7 : Index := 0#32
  ![v16.toNat, 0]
def k0_cond2 (i : grid0.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

@[reducible] def k1_t1_loop : Scf.Loop 32 :=
  let c0_i32_2 : BitVec 32 := 0#32
  let c8_i32 : BitVec 32 := 8#32
  let v8 : BitVec 32 := Scalar.addi c0_i32_2 c8_i32
  let c1_i32 : BitVec 32 := 1#32
  ⟨c0_i32_2, v8, c1_i32⟩
def k1_mult1 (k1_t1 : Fin k1_t1_loop.trips) : BitVec 32 :=
  let c0_i32_6 : BitVec 32 := 0#32
  let c0_i32_2 : BitVec 32 := 0#32
  let c1_i32 : BitVec 32 := 1#32
  let arg5 : BitVec 32 := Scf.iv c0_i32_2 c1_i32 k1_t1
  let c1_i32_5 : BitVec 32 := 1#32
  let v12 : BitVec 32 := Scalar.muli arg5 c1_i32_5
  let v13 : BitVec 32 := Scalar.addi c0_i32_6 v12
  let c1024_i32 : BitVec 32 := 1024#32
  let v14 : BitVec 32 := Scalar.muli v13 c1024_i32
  v14
def k1_off1 (k1_t1 : Fin k1_t1_loop.trips) : Fin 2 → Nat :=
  let c0_i32_6 : BitVec 32 := 0#32
  let c0_i32_2 : BitVec 32 := 0#32
  let c1_i32 : BitVec 32 := 1#32
  let arg5 : BitVec 32 := Scf.iv c0_i32_2 c1_i32 k1_t1
  let c1_i32_5 : BitVec 32 := 1#32
  let v12 : BitVec 32 := Scalar.muli arg5 c1_i32_5
  let v13 : BitVec 32 := Scalar.addi c0_i32_6 v12
  let c1024_i32 : BitVec 32 := 1024#32
  let v14 : BitVec 32 := Scalar.muli v13 c1024_i32
  let v15 : BitVec 32 := v14
  let v16 : Index := Scalar.indexCast v15
  let c0_7 : Index := 0#32
  ![v16.toNat, 0]
def k1_cond2 (i : grid1.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_4 : BitVec 32 := 0#32
  let v11 : BitVec 1 := Scalar.cmpi .ne v10 c0_i32_4
  v11

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

@[reducible] def k2_t1_loop : Scf.Loop 32 :=
  let c0_i32_2 : BitVec 32 := 0#32
  let c8_i32 : BitVec 32 := 8#32
  let v8 : BitVec 32 := Scalar.addi c0_i32_2 c8_i32
  let c1_i32 : BitVec 32 := 1#32
  ⟨c0_i32_2, v8, c1_i32⟩
def k2_mult1 (k2_t1 : Fin k2_t1_loop.trips) : BitVec 32 :=
  let c0_i32_6 : BitVec 32 := 0#32
  let c0_i32_2 : BitVec 32 := 0#32
  let c1_i32 : BitVec 32 := 1#32
  let arg5 : BitVec 32 := Scf.iv c0_i32_2 c1_i32 k2_t1
  let c1_i32_5 : BitVec 32 := 1#32
  let v12 : BitVec 32 := Scalar.muli arg5 c1_i32_5
  let v13 : BitVec 32 := Scalar.addi c0_i32_6 v12
  let c1024_i32 : BitVec 32 := 1024#32
  let v14 : BitVec 32 := Scalar.muli v13 c1024_i32
  v14
def k2_off1 (k2_t1 : Fin k2_t1_loop.trips) : Fin 2 → Nat :=
  let c0_i32_6 : BitVec 32 := 0#32
  let c0_i32_2 : BitVec 32 := 0#32
  let c1_i32 : BitVec 32 := 1#32
  let arg5 : BitVec 32 := Scf.iv c0_i32_2 c1_i32 k2_t1
  let c1_i32_5 : BitVec 32 := 1#32
  let v12 : BitVec 32 := Scalar.muli arg5 c1_i32_5
  let v13 : BitVec 32 := Scalar.addi c0_i32_6 v12
  let c1024_i32 : BitVec 32 := 1024#32
  let v14 : BitVec 32 := Scalar.muli v13 c1024_i32
  let v15 : BitVec 32 := v14
  let v16 : Index := Scalar.indexCast v15
  let c0_7 : Index := 0#32
  ![v16.toNat, 0]
def k2_cond2 (i : grid2.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_4 : BitVec 32 := 0#32
  let v11 : BitVec 1 := Scalar.cmpi .ne v10 c0_i32_4
  v11

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  bitsLt_bf16_f32 : FTy.bits .bf16 < FTy.bits .f32
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x256_S1024x256_S1024x1024_1_1_0_0_n_n_wf : DotDims.WF S1024x256 S1024x256 S1024x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  k2_t1_ok : k2_t1_loop.OK
  k2_mult1_dvd : ∀ k2_t1 : Fin k2_t1_loop.trips, 1024 ∣ (k2_mult1 k2_t1).toNat
  k2_off1_inb : ∀ k2_t1 : Fin k2_t1_loop.trips, ∀ a, (k2_off1 k2_t1) a + S1024x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .f32 = 32 ∨ (Rect.block (s := S8192x256) S8192x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 99
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S256x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x256, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S256x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192x256, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x256, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S1x8192, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S256x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_cst_13 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_14 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_15 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_16 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_17 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_18 : Ref sig .tc := ⟨.hbm, 91, rfl⟩
abbrev main_v70 : Ref sig .tc := ⟨.hbm, 92, rfl⟩
abbrev main_cst_19 : Ref sig .tc := ⟨.hbm, 93, rfl⟩
abbrev main_v71 : Ref sig .tc := ⟨.hbm, 94, rfl⟩
abbrev main_v72 : Ref sig .tc := ⟨.hbm, 95, rfl⟩
abbrev main_cst_20 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Runs.lean ====
import proofs.«105459_j82652350644520_1_alg».proof.Proof.Gen.Kernel.Launch
import proofs.«105459_j82652350644520_1_alg».proof.Proof.Gen.Kernel.Skeleton
import proofs.«105459_j82652350644520_1_alg».proof.Proof.Gen.Kernel.Loops
import proofs.«105459_j82652350644520_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch and the copy-out branch of the body, as conditions on the grid point. -/
abbrev isFirst (i : grid0.Coords) : Prop := (Scalar.cmpi .ne (Scalar.extui (Scalar.cmpi .eq (BitVec.ofNat 32 (i 0).val) 0#32)) 0#32) = 1#1
abbrev isLast (i : grid0.Coords) : Prop := k0_cond2 i = 1#1

theorem isFirst_iff : ∀ t : Fin grid0.N, isFirst (grid0.coords t) ↔ t.val % 8 = 0 := by decide +kernel
theorem isLast_iff : ∀ t : Fin grid0.N, isLast (grid0.coords t) ↔ t.val % 8 = 7 := by decide +kernel

theorem fin_lt (t : Fin grid0.N) : t.val < 8 := lt_of_lt_of_eq t.isLt N_0
theorem notFirst_of_pos (t : Fin grid0.N) (h : t.val ≠ 0) : ¬isFirst (grid0.coords t) := fun hc => by
  have := fin_lt t; have := (isFirst_iff t).mp hc; omega
theorem notLast_of_ne (t : Fin grid0.N) (h : t.val ≠ 7) : ¬isLast (grid0.coords t) := fun hc => by
  have := fin_lt t; have := (isLast_iff t).mp hc; omega
theorem isLast_of_eq (t : Fin grid0.N) (h : t.val = 7) : isLast (grid0.coords t) := (isLast_iff t).mpr (by rw [h])
theorem isFirst_of_eq (t : Fin grid0.N) (h : t.val = 0) : isFirst (grid0.coords t) := (isFirst_iff t).mpr (by rw [h])

section Point
variable (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole)

set_option maxHeartbeats 4000000 in
/-- First point: the accumulator is reset and then takes the eight trips' sums; `LA` is what was stored into it, and the accumulator is handed back at the value of those pieces. -/
noncomputable def runFirst (h0 : isFirst i) (h1 : ¬isLast i) (x0 : Vec F S1024x256 .f32) (x1 : Vec F S8192x256 .f32) :
    { LA : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ owns (c : Thread nD τ) arg4 fullShare (View.canon LA)) -∗ K ⟨⟩))
          ⊢ wp frame (wpE (defs₀ (F := F)) Variants.none c none) E (cc0_kernel i arg1 harg1 arg2 harg2 arg3 harg3 arg4 harg4) K } := by
  refine ⟨?_, fun xo E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact h0 | exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr
    swap; · iexact HS
    ipureintro; refine View.read_writes_eq_canon (Val := Elt F) _ _ _ ?_; exact View.cover_of_tiledL _ S1x1.size (by sl_kernel_rfl)

set_option maxHeartbeats 4000000 in
/-- A middle point: the accumulator, found at `xs`, takes the eight trips' sums. -/
noncomputable def runMid (h0 : ¬isFirst i) (h1 : ¬isLast i) (x0 : Vec F S1024x256 .f32) (x1 : Vec F S8192x256 .f32) (xs : Vec F S1x1 .f32) :
    { LA : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ owns (c : Thread nD τ) arg3 fullShare xo ∗ owns (c : Thread nD τ) arg4 fullShare (View.canon LA)) -∗ K ⟨⟩))
          ⊢ wp frame (wpE (defs₀ (F := F)) Variants.none c none) E (cc0_kernel i arg1 harg1 arg2 harg2 arg3 harg3 arg4 harg4) K } := by
  refine ⟨?_, fun xo E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact h0 | exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr
    swap; · iexact HS
    ipureintro; refine View.read_writes_eq_canon (Val := Elt F) _ _ _ ?_; exact View.cover_of_tiledL _ S1x1.size (by sl_kernel_rfl)

set_option maxHeartbeats 4000000 in
/-- The last point: as a middle point, and then the accumulator is copied into the result's block (`LO`). -/
noncomputable def runLast (h0 : ¬isFirst i) (h1 : isLast i) (x0 : Vec F S1024x256 .f32) (x1 : Vec F S8192x256 .f32) (xs : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ owns (c : Thread nD τ) arg3 fullShare (View.canon LO) ∗ owns (c : Thread nD τ) arg4 fullShare (View.canon LA)) -∗ K ⟨⟩))
          ⊢ wp frame (wpE (defs₀ (F := F)) Variants.none c none) E (cc0_kernel i arg1 harg1 arg2 harg2 arg3 harg3 arg4 harg4) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact h0 | exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro; refine View.read_writes_eq_canon (Val := Elt F) _ _ _ ?_; exact View.cover_of_tiledL _ S1x1.size (by sl_kernel_rfl)
    iexists _; isplitr
    swap; · iexact HS
    ipureintro; refine View.read_writes_eq_canon (Val := Elt F) _ _ _ ?_; exact View.cover_of_tiledL _ S1x1.size (by sl_kernel_rfl)

/-- What each run leaves in the accumulator and, at the last point, in the result's block: the pieces it stored, read as one value. -/
def accFirst (h0 : isFirst i) (h1 : ¬isLast i) (x0 : Vec F S1024x256 .f32) (x1 : Vec F S8192x256 .f32) : Vec F S1x1 .f32 :=
  View.canon (runFirst c i arg1 harg1 arg2 harg2 arg3 harg3 arg4 harg4 h0 h1 x0 x1).1
def accMid (h0 : ¬isFirst i) (h1 : ¬isLast i) (x0 : Vec F S1024x256 .f32) (x1 : Vec F S8192x256 .f32) (xs : Vec F S1x1 .f32) : Vec F S1x1 .f32 :=
  View.canon (runMid c i arg1 harg1 arg2 harg2 arg3 harg3 arg4 harg4 h0 h1 x0 x1 xs).1
def accLast (h0 : ¬isFirst i) (h1 : isLast i) (x0 : Vec F S1024x256 .f32) (x1 : Vec F S8192x256 .f32) (xs : Vec F S1x1 .f32) : Vec F S1x1 .f32 :=
  View.canon (runLast c i arg1 harg1 arg2 harg2 arg3 harg3 arg4 harg4 h0 h1 x0 x1 xs).2.1
def outLast (h0 : ¬isFirst i) (h1 : isLast i) (x0 : Vec F S1024x256 .f32) (x1 : Vec F S8192x256 .f32) (xs : Vec F S1x1 .f32) : Vec F S1x1 .f32 :=
  View.canon (runLast c i arg1 harg1 arg2 harg2 arg3 harg3 arg4 harg4 h0 h1 x0 x1 xs).1

end Point

section Grid
variable (c : Dev nD) (b1 : Fin grid0.N → Memref sig .tc .vmem S1024x256 .f32) (hb1 : ∀ t, (b1 t).IsWhole)
  (b2 : Fin grid0.N → Memref sig .tc .vmem S8192x256 .f32) (hb2 : ∀ t, (b2 t).IsWhole)
  (b3 : Fin grid0.N → Memref sig .tc .vmem S1x1 .f32) (hb3 : ∀ t, (b3 t).IsWhole)
  (a4 : Memref sig .tc .vmem S1x1 .f32) (ha4 : a4.IsWhole)
  (X0 : Fin grid0.N → Vec F S1024x256 .f32) (X1 : Fin grid0.N → Vec F S8192x256 .f32) (junk : Vec F S1x1 .f32)

/-- The result's block (consulted at the last point only) and the accumulator after the body at position `n`, for buffers and input blocks given point by point: the first point's run, then each point's run from what the point before left. -/
def outsAt : (n : ℕ) → n < grid0.N → Vec F S1x1 .f32 × Vec F S1x1 .f32
  | 0, hn => (junk,
      accFirst c (grid0.coords ⟨0, hn⟩) (b1 ⟨0, hn⟩) (hb1 ⟨0, hn⟩) (b2 ⟨0, hn⟩) (hb2 ⟨0, hn⟩) (b3 ⟨0, hn⟩) (hb3 ⟨0, hn⟩) a4 ha4 (isFirst_of_eq ⟨0, hn⟩ rfl) (notLast_of_ne ⟨0, hn⟩ (by show (0 : ℕ) ≠ 7; decide)) (X0 ⟨0, hn⟩) (X1 ⟨0, hn⟩))
  | n + 1, hn =>
    if h7 : n + 1 = 7 then
      (outLast c (grid0.coords ⟨n + 1, hn⟩) (b1 ⟨n + 1, hn⟩) (hb1 ⟨n + 1, hn⟩) (b2 ⟨n + 1, hn⟩) (hb2 ⟨n + 1, hn⟩) (b3 ⟨n + 1, hn⟩) (hb3 ⟨n + 1, hn⟩) a4 ha4 (notFirst_of_pos ⟨n + 1, hn⟩ (Nat.succ_ne_zero n)) (isLast_of_eq ⟨n + 1, hn⟩ h7) (X0 ⟨n + 1, hn⟩) (X1 ⟨n + 1, hn⟩) (outsAt n (Nat.lt_of_succ_lt hn)).2,
       accLast c (grid0.coords ⟨n + 1, hn⟩) (b1 ⟨n + 1, hn⟩) (hb1 ⟨n + 1, hn⟩) (b2 ⟨n + 1, hn⟩) (hb2 ⟨n + 1, hn⟩) (b3 ⟨n + 1, hn⟩) (hb3 ⟨n + 1, hn⟩) a4 ha4 (notFirst_of_pos ⟨n + 1, hn⟩ (Nat.succ_ne_zero n)) (isLast_of_eq ⟨n + 1, hn⟩ h7) (X0 ⟨n + 1, hn⟩) (X1 ⟨n + 1, hn⟩) (outsAt n (Nat.lt_of_succ_lt hn)).2)
    else
      (junk,
       accMid c (grid0.coords ⟨n + 1, hn⟩) (b1 ⟨n + 1, hn⟩) (hb1 ⟨n + 1, hn⟩) (b2 ⟨n + 1, hn⟩) (hb2 ⟨n + 1, hn⟩) (b3 ⟨n + 1, hn⟩) (hb3 ⟨n + 1, hn⟩) a4 ha4 (notFirst_of_pos ⟨n + 1, hn⟩ (Nat.succ_ne_zero n)) (notLast_of_ne ⟨n + 1, hn⟩ h7) (X0 ⟨n + 1, hn⟩) (X1 ⟨n + 1, hn⟩) (outsAt n (Nat.lt_of_succ_lt hn)).2)

theorem outsAt_first (t : Fin grid0.N) (h : t.val = 0) :
    outsAt c b1 hb1 b2 hb2 b3 hb3 a4 ha4 X0 X1 junk t.val t.isLt = (junk,
      accFirst c (grid0.coords t) (b1 t) (hb1 t) (b2 t) (hb2 t) (b3 t) (hb3 t) a4 ha4 (isFirst_of_eq t h) (notLast_of_ne t (by omega)) (X0 t) (X1 t)) := by
  obtain ⟨n, hn⟩ := t
  cases n with
  | zero => rfl
  | succ n => exact absurd h (Nat.succ_ne_zero n)

theorem outsAt_mid (t : Fin grid0.N) (h0 : t.val ≠ 0) (h7 : t.val ≠ 7) :
    outsAt c b1 hb1 b2 hb2 b3 hb3 a4 ha4 X0 X1 junk t.val t.isLt = (junk,
      accMid c (grid0.coords t) (b1 t) (hb1 t) (b2 t) (hb2 t) (b3 t) (hb3 t) a4 ha4 (notFirst_of_pos t h0) (notLast_of_ne t h7) (X0 t) (X1 t) (outsAt c b1 hb1 b2 hb2 b3 hb3 a4 ha4 X0 X1 junk (t.val - 1) (Nat.lt_of_le_of_lt (Nat.sub_le _ _) t.isLt)).2) := by
  obtain ⟨n, hn⟩ := t
  cases n with
  | zero => exact absurd rfl h0
  | succ n => exact (dif_neg h7).trans rfl

theorem outsAt_last (t : Fin grid0.N) (h0 : t.val ≠ 0) (h7 : t.val = 7) :
    outsAt c b1 hb1 b2 hb2 b3 hb3 a4 ha4 X0 X1 junk t.val t.isLt = (outLast c (grid0.coords t) (b1 t) (hb1 t) (b2 t) (hb2 t) (b3 t) (hb3 t) a4 ha4 (notFirst_of_pos t h0) (isLast_of_eq t h7) (X0 t) (X1 t) (outsAt c b1 hb1 b2 hb2 b3 hb3 a4 ha4 X0 X1 junk (t.val - 1) (Nat.lt_of_le_of_lt (Nat.sub_le _ _) t.isLt)).2,
      accLast c (grid0.coords t) (b1 t) (hb1 t) (b2 t) (hb2 t) (b3 t) (hb3 t) a4 ha4 (notFirst_of_pos t h0) (isLast_of_eq t h7) (X0 t) (X1 t) (outsAt c b1 hb1 b2 hb2 b3 hb3 a4 ha4 X0 X1 junk (t.val - 1) (Nat.lt_of_le_of_lt (Nat.sub_le _ _) t.isLt)).2) := by
  obtain ⟨n, hn⟩ := t
  cases n with
  | zero => exact absurd rfl h0
  | succ n => exact (dif_pos h7).trans rfl

end Grid

end Cert.Kernel.Hand

end
-- ==== Proof.K.Dat0.lean ====
import proofs.«105459_j82652350644520_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬isLast (grid0.coords t) → cfg0.idle 2 (grid0.coords t) = true := by decide +kernel
theorem noFlush0_2 : ∀ t : Fin cfg0.N, ¬isLast (grid0.coords t) → (cfg0.win 2).flush t = false := by decide +kernel
theorem live0_2 : ∀ t : Fin cfg0.N, isLast (grid0.coords t) → cfg0.idle 2 (grid0.coords t) = false := by decide +kernel

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev acc0 : Memref sig .tc .vmem S1x1 .f32 := Memref.whole cc0_scratch0

/-- The body at point `t` is the shared kernel function at this region's buffers. -/
theorem bodyAt0_eq (t : Fin cfg0.N) :
    bodyAt0 (F := F) t = cc0_kernel (grid0.coords t) (ms0_0 t) (hs0_0 t) (ms0_1 t) (hs0_1 t) (ms0_2 t) (hs0_2 t) acc0 (Memref.isWhole_whole _) := rfl

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev outV0 : View sig .tc .vmem S1x1 .f32 := (Memref.whole cc0_stg2_0 : Memref sig .tc .vmem S1x1 .f32).view

/-- The accumulation over this region's grid: its buffers and its input blocks, point by point. -/
def outsAt0 (c : Dev nD) : (n : ℕ) → n < cfg0.N → Vec F S1x1 .f32 × Vec F S1x1 .f32 :=
  outsAt c ms0_0 hs0_0 ms0_1 hs0_1 ms0_2 hs0_2 acc0 (Memref.isWhole_whole _) (iblk0 V c 0) (iblk0 V c 1) (outV0.read (Elt F) outV0.junk)

/-- The core's scoped buffers that are neither this region's staging buffers nor its accumulator, each at some contents. -/
abbrev others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem scoped0_eq (c : Dev nD) :
    (Pipeline.scopedRest spec0 c : sProp 𝕄)
      = iprop((∃ d, owns (c : Thread nD τ) acc0 fullShare d) ∗ others0 (F := F) c) := by
  unfold Pipeline.scopedRest
  rw [bigSep_erase (i := cc0_scratch0) (by decide)]
  simp only [acc0, owns_whole]; try rfl

/-- The invariant before position `n`: at first the scoped buffers at anything, afterwards the accumulator at what the point before left. -/
def PhiS0 (c : Dev nD) : (n : ℕ) → n ≤ cfg0.N → sProp 𝕄
  | 0, _ => Pipeline.scopedRest spec0 c
  | n + 1, hn => iprop(owns (c : Thread nD τ) acc0 fullShare ((outsAt0 V c n hn).2) ∗ others0 (F := F) c)

theorem PhiS0_zero (c : Dev nD) (n : ℕ) (h : n ≤ cfg0.N) (hz : n = 0) :
    PhiS0 V c n h = Pipeline.scopedRest spec0 c := by
  subst hz; rfl
theorem PhiS0_succ (c : Dev nD) (n : ℕ) (hn : n < cfg0.N) :
    PhiS0 V c (n + 1) hn = iprop(owns (c : Thread nD τ) acc0 fullShare ((outsAt0 V c n hn).2) ∗ others0 (F := F) c) := rfl
theorem PhiS0_pos (c : Dev nD) (n : ℕ) (h : n ≤ cfg0.N) (hz : n ≠ 0) :
    PhiS0 V c n h = iprop(owns (c : Thread nD τ) acc0 fullShare ((outsAt0 V c (n - 1) (by omega)).2) ∗ others0 (F := F) c) := by
  cases n with
  | zero => exact absurd rfl hz
  | succ n => rfl

/-- The region's proof data entered at contents `V`; `q` is the share of its array each input window holds. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q w := if w.val = 0 then fullShare.left else fullShare.right
  owed _ := 0

theorem A_eq0 (c : Dev nD) (w : Fin cfg0.W) : (dat0 V c).A w = V c (Pipeline.arrRef spec0 w) := by dsimp only [dat0]
theorem PhiS0_castSucc (c : Dev nD) (t : Fin cfg0.N) : (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
/-- An input window's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end Cert.Kernel.Hand

end
-- ==== Proof.K.Obl0.lean ====
import proofs.«105459_j82652350644520_1_alg».proof.Proof.K.Dat0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hN : t.val < 8 := lt_of_lt_of_eq t.isLt (show cfg0.N = 8 from N_0)
  by_cases hz : t.val = 0
  · have hl : ¬isLast (grid0.coords t) := notLast_of_ne t (by omega)
    rw [Dat.leavesExact_idle (dat0 V c) 2 t (idle0_2 t hl) (noFlush0_2 t hl)]
    rw [PhiS0_castSucc V c t, PhiS0_zero V c _ _ hz, scoped0_eq]
    unfold outsAt0
    rw [outsAt_first _ _ _ _ _ _ _ _ _ _ _ _ t hz]
    unfold accFirst
    iintro ⟨⟨HS, Hoth⟩, Ho, ⟨%d0, H0⟩, ⟨%d1, H1⟩, ⟨%d2, H2⟩⟩
    iapply ((runFirst c (grid0.coords t) _ _ _ _ _ _ _ _ (isFirst_of_eq t hz) hl (iblk0 V c 0 t) (iblk0 V c 1 t)).2 _ Set.univ _)
    isplitl [H0]; · iexact H0
    isplitl [H1]; · iexact H1
    isplitl [H2]; · iexact H2
    isplitl [HS]; · iexact HS
    iintro ⟨H0, H1, H2, HS⟩
    isplitl [HS Hoth]
    · isplitl [HS]; · iexact HS
      iexact Hoth
    isplitl [Ho]; · iexact Ho
    isplitl [H0]; · iexact H0
    isplitl [H1]; · iexact H1
    iexists _; iexact H2
  · by_cases h7 : t.val = 7
    · have hl : isLast (grid0.coords t) := isLast_of_eq t h7
      rw [show (dat0 V c).leavesExact 2 t = owns (c : Thread nD τ) (ms0_2 t) fullShare ((dat0 V c).after 2 t) from by
        unfold Dat.leavesExact; rw [live0_2 t hl], after0_2]
      rw [PhiS0_castSucc V c t, PhiS0_pos V c _ _ hz]
      unfold outsAt0
      rw [outsAt_last _ _ _ _ _ _ _ _ _ _ _ _ t hz h7]
      unfold outLast accLast
      iintro ⟨⟨HS, Hoth⟩, Ho, ⟨%d0, H0⟩, ⟨%d1, H1⟩, ⟨%d2, H2⟩⟩
      iapply ((runLast c (grid0.coords t) _ _ _ _ _ _ _ _ (notFirst_of_pos t hz) hl (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexact H2
    · have hl : ¬isLast (grid0.coords t) := notLast_of_ne t h7
      rw [Dat.leavesExact_idle (dat0 V c) 2 t (idle0_2 t hl) (noFlush0_2 t hl)]
      rw [PhiS0_castSucc V c t, PhiS0_pos V c _ _ hz]
      unfold outsAt0
      rw [outsAt_mid _ _ _ _ _ _ _ _ _ _ _ _ t hz h7]
      unfold accMid
      iintro ⟨⟨HS, Hoth⟩, Ho, ⟨%d0, H0⟩, ⟨%d1, H1⟩, ⟨%d2, H2⟩⟩
      iapply ((runMid c (grid0.coords t) _ _ _ _ _ _ _ _ (notFirst_of_pos t hz) hl (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Dat1.lean ====
import proofs.«105459_j82652350644520_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬isLast (grid1.coords t) → cfg1.idle 2 (grid1.coords t) = true := by decide +kernel
theorem noFlush1_2 : ∀ t : Fin cfg1.N, ¬isLast (grid1.coords t) → (cfg1.win 2).flush t = false := by decide +kernel
theorem live1_2 : ∀ t : Fin cfg1.N, isLast (grid1.coords t) → cfg1.idle 2 (grid1.coords t) = false := by decide +kernel

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev acc1 : Memref sig .tc .vmem S1x1 .f32 := Memref.whole cc1_scratch0

/-- The body at point `t` is the shared kernel function at this region's buffers. -/
theorem bodyAt1_eq (t : Fin cfg1.N) :
    bodyAt1 (F := F) t = cc0_kernel (grid1.coords t) (ms1_0 t) (hs1_0 t) (ms1_1 t) (hs1_1 t) (ms1_2 t) (hs1_2 t) acc1 (Memref.isWhole_whole _) := rfl

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev outV1 : View sig .tc .vmem S1x1 .f32 := (Memref.whole cc1_stg2_0 : Memref sig .tc .vmem S1x1 .f32).view

/-- The accumulation over this region's grid: its buffers and its input blocks, point by point. -/
def outsAt1 (c : Dev nD) : (n : ℕ) → n < cfg1.N → Vec F S1x1 .f32 × Vec F S1x1 .f32 :=
  outsAt c ms1_0 hs1_0 ms1_1 hs1_1 ms1_2 hs1_2 acc1 (Memref.isWhole_whole _) (iblk1 V c 0) (iblk1 V c 1) (outV1.read (Elt F) outV1.junk)

/-- The core's scoped buffers that are neither this region's staging buffers nor its accumulator, each at some contents. -/
abbrev others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem scoped1_eq (c : Dev nD) :
    (Pipeline.scopedRest spec1 c : sProp 𝕄)
      = iprop((∃ d, owns (c : Thread nD τ) acc1 fullShare d) ∗ others1 (F := F) c) := by
  unfold Pipeline.scopedRest
  rw [bigSep_erase (i := cc1_scratch0) (by decide)]
  simp only [acc1, owns_whole]; try rfl

/-- The invariant before position `n`: at first the scoped buffers at anything, afterwards the accumulator at what the point before left. -/
def PhiS1 (c : Dev nD) : (n : ℕ) → n ≤ cfg1.N → sProp 𝕄
  | 0, _ => Pipeline.scopedRest spec1 c
  | n + 1, hn => iprop(owns (c : Thread nD τ) acc1 fullShare ((outsAt1 V c n hn).2) ∗ others1 (F := F) c)

theorem PhiS1_zero (c : Dev nD) (n : ℕ) (h : n ≤ cfg1.N) (hz : n = 0) :
    PhiS1 V c n h = Pipeline.scopedRest spec1 c := by
  subst hz; rfl
theorem PhiS1_succ (c : Dev nD) (n : ℕ) (hn : n < cfg1.N) :
    PhiS1 V c (n + 1) hn = iprop(owns (c : Thread nD τ) acc1 fullShare ((outsAt1 V c n hn).2) ∗ others1 (F := F) c) := rfl
theorem PhiS1_pos (c : Dev nD) (n : ℕ) (h : n ≤ cfg1.N) (hz : n ≠ 0) :
    PhiS1 V c n h = iprop(owns (c : Thread nD τ) acc1 fullShare ((outsAt1 V c (n - 1) (by omega)).2) ∗ others1 (F := F) c) := by
  cases n with
  | zero => exact absurd rfl hz
  | succ n => rfl

/-- The region's proof data entered at contents `V`; `q` is the share of its array each input window holds. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := if w.val = 0 then fullShare.left else fullShare.right
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
/-- An input window's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Cert.Kernel.Hand

end
-- ==== Proof.K.Obl1.lean ====
import proofs.«105459_j82652350644520_1_alg».proof.Proof.K.Dat1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 8 := lt_of_lt_of_eq t.isLt (show cfg1.N = 8 from N_1)
  by_cases hz : t.val = 0
  · have hl : ¬isLast (grid1.coords t) := notLast_of_ne t (by omega)
    rw [Dat.leavesExact_idle (dat1 V c) 2 t (idle1_2 t hl) (noFlush1_2 t hl)]
    rw [PhiS1_castSucc V c t, PhiS1_zero V c _ _ hz, scoped1_eq]
    unfold outsAt1
    rw [outsAt_first _ _ _ _ _ _ _ _ _ _ _ _ t hz]
    unfold accFirst
    iintro ⟨⟨HS, Hoth⟩, Ho, ⟨%d0, H0⟩, ⟨%d1, H1⟩, ⟨%d2, H2⟩⟩
    iapply ((runFirst c (grid1.coords t) _ _ _ _ _ _ _ _ (isFirst_of_eq t hz) hl (iblk1 V c 0 t) (iblk1 V c 1 t)).2 _ Set.univ _)
    isplitl [H0]; · iexact H0
    isplitl [H1]; · iexact H1
    isplitl [H2]; · iexact H2
    isplitl [HS]; · iexact HS
    iintro ⟨H0, H1, H2, HS⟩
    isplitl [HS Hoth]
    · isplitl [HS]; · iexact HS
      iexact Hoth
    isplitl [Ho]; · iexact Ho
    isplitl [H0]; · iexact H0
    isplitl [H1]; · iexact H1
    iexists _; iexact H2
  · by_cases h7 : t.val = 7
    · have hl : isLast (grid1.coords t) := isLast_of_eq t h7
      rw [show (dat1 V c).leavesExact 2 t = owns (c : Thread nD τ) (ms1_2 t) fullShare ((dat1 V c).after 2 t) from by
        unfold Dat.leavesExact; rw [live1_2 t hl], after1_2]
      rw [PhiS1_castSucc V c t, PhiS1_pos V c _ _ hz]
      unfold outsAt1
      rw [outsAt_last _ _ _ _ _ _ _ _ _ _ _ _ t hz h7]
      unfold outLast accLast
      iintro ⟨⟨HS, Hoth⟩, Ho, ⟨%d0, H0⟩, ⟨%d1, H1⟩, ⟨%d2, H2⟩⟩
      iapply ((runLast c (grid1.coords t) _ _ _ _ _ _ _ _ (notFirst_of_pos t hz) hl (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexact H2
    · have hl : ¬isLast (grid1.coords t) := notLast_of_ne t h7
      rw [Dat.leavesExact_idle (dat1 V c) 2 t (idle1_2 t hl) (noFlush1_2 t hl)]
      rw [PhiS1_castSucc V c t, PhiS1_pos V c _ _ hz]
      unfold outsAt1
      rw [outsAt_mid _ _ _ _ _ _ _ _ _ _ _ _ t hz h7]
      unfold accMid
      iintro ⟨⟨HS, Hoth⟩, Ho, ⟨%d0, H0⟩, ⟨%d1, H1⟩, ⟨%d2, H2⟩⟩
      iapply ((runMid c (grid1.coords t) _ _ _ _ _ _ _ _ (notFirst_of_pos t hz) hl (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexists _; iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Dat2.lean ====
import proofs.«105459_j82652350644520_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, ¬isLast (grid2.coords t) → cfg2.idle 2 (grid2.coords t) = true := by decide +kernel
theorem noFlush2_2 : ∀ t : Fin cfg2.N, ¬isLast (grid2.coords t) → (cfg2.win 2).flush t = false := by decide +kernel
theorem live2_2 : ∀ t : Fin cfg2.N, isLast (grid2.coords t) → cfg2.idle 2 (grid2.coords t) = false := by decide +kernel

abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev acc2 : Memref sig .tc .vmem S1x1 .f32 := Memref.whole cc2_scratch0

/-- The body at point `t` is the shared kernel function at this region's buffers. -/
theorem bodyAt2_eq (t : Fin cfg2.N) :
    bodyAt2 (F := F) t = cc0_kernel (grid2.coords t) (ms2_0 t) (hs2_0 t) (ms2_1 t) (hs2_1 t) (ms2_2 t) (hs2_2 t) acc2 (Memref.isWhole_whole _) := rfl

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev outV2 : View sig .tc .vmem S1x1 .f32 := (Memref.whole cc2_stg2_0 : Memref sig .tc .vmem S1x1 .f32).view

/-- The accumulation over this region's grid: its buffers and its input blocks, point by point. -/
def outsAt2 (c : Dev nD) : (n : ℕ) → n < cfg2.N → Vec F S1x1 .f32 × Vec F S1x1 .f32 :=
  outsAt c ms2_0 hs2_0 ms2_1 hs2_1 ms2_2 hs2_2 acc2 (Memref.isWhole_whole _) (iblk2 V c 0) (iblk2 V c 1) (outV2.read (Elt F) outV2.junk)

/-- The core's scoped buffers that are neither this region's staging buffers nor its accumulator, each at some contents. -/
abbrev others2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

theorem scoped2_eq (c : Dev nD) :
    (Pipeline.scopedRest spec2 c : sProp 𝕄)
      = iprop((∃ d, owns (c : Thread nD τ) acc2 fullShare d) ∗ others2 (F := F) c) := by
  unfold Pipeline.scopedRest
  rw [bigSep_erase (i := cc2_scratch0) (by decide)]
  simp only [acc2, owns_whole]; try rfl

/-- The invariant before position `n`: at first the scoped buffers at anything, afterwards the accumulator at what the point before left. -/
def PhiS2 (c : Dev nD) : (n : ℕ) → n ≤ cfg2.N → sProp 𝕄
  | 0, _ => Pipeline.scopedRest spec2 c
  | n + 1, hn => iprop(owns (c : Thread nD τ) acc2 fullShare ((outsAt2 V c n hn).2) ∗ others2 (F := F) c)

theorem PhiS2_zero (c : Dev nD) (n : ℕ) (h : n ≤ cfg2.N) (hz : n = 0) :
    PhiS2 V c n h = Pipeline.scopedRest spec2 c := by
  subst hz; rfl
theorem PhiS2_succ (c : Dev nD) (n : ℕ) (hn : n < cfg2.N) :
    PhiS2 V c (n + 1) hn = iprop(owns (c : Thread nD τ) acc2 fullShare ((outsAt2 V c n hn).2) ∗ others2 (F := F) c) := rfl
theorem PhiS2_pos (c : Dev nD) (n : ℕ) (h : n ≤ cfg2.N) (hz : n ≠ 0) :
    PhiS2 V c n h = iprop(owns (c : Thread nD τ) acc2 fullShare ((outsAt2 V c (n - 1) (by omega)).2) ∗ others2 (F := F) c) := by
  cases n with
  | zero => exact absurd rfl hz
  | succ n => rfl

/-- The region's proof data entered at contents `V`; `q` is the share of its array each input window holds. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem PhiS2_castSucc (c : Dev nD) (t : Fin cfg2.N) : (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
/-- An input window's buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

end Cert.Kernel.Hand

end
-- ==== Proof.K.Obl2.lean ====
import proofs.«105459_j82652350644520_1_alg».proof.Proof.K.Dat2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, and what it returns. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [bodyAt2_eq]
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  have hN : t.val < 8 := lt_of_lt_of_eq t.isLt (show cfg2.N = 8 from N_2)
  by_cases hz : t.val = 0
  · have hl : ¬isLast (grid2.coords t) := notLast_of_ne t (by omega)
    rw [Dat.leavesExact_idle (dat2 V c) 2 t (idle2_2 t hl) (noFlush2_2 t hl)]
    rw [PhiS2_castSucc V c t, PhiS2_zero V c _ _ hz, scoped2_eq]
    unfold outsAt2
    rw [outsAt_first _ _ _ _ _ _ _ _ _ _ _ _ t hz]
    unfold accFirst
    iintro ⟨⟨HS, Hoth⟩, Ho, ⟨%d0, H0⟩, ⟨%d1, H1⟩, ⟨%d2, H2⟩⟩
    iapply ((runFirst c (grid2.coords t) _ _ _ _ _ _ _ _ (isFirst_of_eq t hz) hl (iblk2 V c 0 t) (iblk2 V c 1 t)).2 _ Set.univ _)
    isplitl [H0]; · iexact H0
    isplitl [H1]; · iexact H1
    isplitl [H2]; · iexact H2
    isplitl [HS]; · iexact HS
    iintro ⟨H0, H1, H2, HS⟩
    isplitl [HS Hoth]
    · isplitl [HS]; · iexact HS
      iexact Hoth
    isplitl [Ho]; · iexact Ho
    isplitl [H0]; · iexact H0
    isplitl [H1]; · iexact H1
    iexists _; iexact H2
  · by_cases h7 : t.val = 7
    · have hl : isLast (grid2.coords t) := isLast_of_eq t h7
      rw [show (dat2 V c).leavesExact 2 t = owns (c : Thread nD τ) (ms2_2 t) fullShare ((dat2 V c).after 2 t) from by
        unfold Dat.leavesExact; rw [live2_2 t hl], after2_2]
      rw [PhiS2_castSucc V c t, PhiS2_pos V c _ _ hz]
      unfold outsAt2
      rw [outsAt_last _ _ _ _ _ _ _ _ _ _ _ _ t hz h7]
      unfold outLast accLast
      iintro ⟨⟨HS, Hoth⟩, Ho, ⟨%d0, H0⟩, ⟨%d1, H1⟩, ⟨%d2, H2⟩⟩
      iapply ((runLast c (grid2.coords t) _ _ _ _ _ _ _ _ (notFirst_of_pos t hz) hl (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexact H2
    · have hl : ¬isLast (grid2.coords t) := notLast_of_ne t h7
      rw [Dat.leavesExact_idle (dat2 V c) 2 t (idle2_2 t hl) (noFlush2_2 t hl)]
      rw [PhiS2_castSucc V c t, PhiS2_pos V c _ _ hz]
      unfold outsAt2
      rw [outsAt_mid _ _ _ _ _ _ _ _ _ _ _ _ t hz h7]
      unfold accMid
      iintro ⟨⟨HS, Hoth⟩, Ho, ⟨%d0, H0⟩, ⟨%d1, H1⟩, ⟨%d2, H2⟩⟩
      iapply ((runMid c (grid2.coords t) _ _ _ _ _ _ _ _ (notFirst_of_pos t hz) hl (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexists _; iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Vals.lean ====
import proofs.«105459_j82652350644520_1_alg».proof.Proof.K.Obl0
import proofs.«105459_j82652350644520_1_alg».proof.Proof.K.Obl1
import proofs.«105459_j82652350644520_1_alg».proof.Proof.K.Obl2
import proofs.«105459_j82652350644520_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffer contents between the items of the entry function, as a fold from the launch memory: a region rewrites its result array, a host stretch what its operations write. -/
abbrev Went0 (c : Dev nD) : Valuation τ sig (Elt F) := fun b => m (c, b)
abbrev Ventry0 : (c : Dev nD) → (b : Ref sig .tc) → Buf (Elt F) ((c : Thread nD τ).loc b) := fun c b => Went0 m c b

def Wexit0 (c : Dev nD) : Valuation τ sig (Elt F) := Function.update (Went0 m c) main_v0 ((dat0 (Ventry0 m) c).arrAt 2 cfg0.N)
abbrev Vexit0 : (c : Dev nD) → (b : Ref sig .tc) → Buf (Elt F) ((c : Thread nD τ).loc b) := fun c b => Wexit0 m c b

abbrev Went1 (c : Dev nD) : Valuation τ sig (Elt F) := StableHlo.after hostOps1 (Wexit0 m c)
abbrev Ventry1 : (c : Dev nD) → (b : Ref sig .tc) → Buf (Elt F) ((c : Thread nD τ).loc b) := fun c b => Went1 m c b
def Wexit1 (c : Dev nD) : Valuation τ sig (Elt F) := Function.update (Went1 m c) main_v3 ((dat1 (Ventry1 m) c).arrAt 2 cfg1.N)
abbrev Vexit1 : (c : Dev nD) → (b : Ref sig .tc) → Buf (Elt F) ((c : Thread nD τ).loc b) := fun c b => Wexit1 m c b

abbrev Went2 (c : Dev nD) : Valuation τ sig (Elt F) := StableHlo.after hostOps2 (Wexit1 m c)
abbrev Ventry2 : (c : Dev nD) → (b : Ref sig .tc) → Buf (Elt F) ((c : Thread nD τ).loc b) := fun c b => Went2 m c b
def Wexit2 (c : Dev nD) : Valuation τ sig (Elt F) := Function.update (Went2 m c) main_v6 ((dat2 (Ventry2 m) c).arrAt 2 cfg2.N)
abbrev Vexit2 : (c : Dev nD) → (b : Ref sig .tc) → Buf (Elt F) ((c : Thread nD τ).loc b) := fun c b => Wexit2 m c b

abbrev Wend (c : Dev nD) : Valuation τ sig (Elt F) := StableHlo.after hostOps3 (Wexit2 m c)

theorem hexitV0 (c : Dev nD) : Vexit0 m c main_v0 = (dat0 (Ventry0 m) c).arrAt 2 cfg0.N := by
  dsimp only [Vexit0, Wexit0]; exact Function.update_self ..
theorem hrestV0 (c : Dev nD) (b : Ref sig .tc) (hb : b ≠ main_v0) : Vexit0 m c b = Ventry0 m c b := by
  dsimp only [Vexit0, Wexit0, Ventry0]; exact Function.update_of_ne (StableHlo.devRef_ne_of_ne hb) ..
theorem hexitV1 (c : Dev nD) : Vexit1 m c main_v3 = (dat1 (Ventry1 m) c).arrAt 2 cfg1.N := by
  dsimp only [Vexit1, Wexit1]; exact Function.update_self ..
theorem hrestV1 (c : Dev nD) (b : Ref sig .tc) (hb : b ≠ main_v3) : Vexit1 m c b = Ventry1 m c b := by
  dsimp only [Vexit1, Wexit1, Ventry1]; exact Function.update_of_ne (StableHlo.devRef_ne_of_ne hb) ..
theorem hexitV2 (c : Dev nD) : Vexit2 m c main_v6 = (dat2 (Ventry2 m) c).arrAt 2 cfg2.N := by
  dsimp only [Vexit2, Wexit2]; exact Function.update_self ..
theorem hrestV2 (c : Dev nD) (b : Ref sig .tc) (hb : b ≠ main_v6) : Vexit2 m c b = Ventry2 m c b := by
  dsimp only [Vexit2, Wexit2, Ventry2]; exact Function.update_of_ne (StableHlo.devRef_ne_of_ne hb) ..

theorem winFacts₀2 : Pipeline.WinFacts₀ spec2 := winFacts2.to₀

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Ventry0 m) c
  | ⟨1, _⟩ => fun c => dat1 (Ventry1 m) c
  | ⟨2, _⟩ => fun c => dat2 (Ventry2 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

end Cert.Kernel.Hand

end
-- ==== Proof.K.Arr0.lean ====
import proofs.«105459_j82652350644520_1_alg».proof.Proof.K.Dat0
import Idealize.ShloMosaic.Lib.Pipeline.Launch
import Idealize.ShloMosaic.Lib.Pipeline.Cells
import Idealize.ShloMosaic.Rules.PointsTo
import Idealize.SL.RA.TreeShare
import Idealize.SL.BI.BigOp

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two input windows read one array: the buffers behind the three windows' arrays are the shared input and the result. -/
theorem arrImage0 : Finset.univ.image (Pipeline.arrRef spec0) = {main_arg0, main_v0} := by decide

theorem unscopedSplit0 (c : Dev nD) (V : (b : Ref sig .tc) → Buf (Elt F) ((c : Thread nD τ).loc b)) :
    (unscopedBufs c V : sProp 𝕄)
      = iprop(Pipeline.arrBufs spec0 c V
          ∗ Pipeline.unscopedRest spec0 c V) :=
  Pipeline.unscopedBufs_split₀ (P := Unit) (fun _ => cfg0) () winFacts₀0.arr_unscoped c V

theorem arrBufs0_eq (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v0) ↦{fullShare} V main_v0)) := by
  unfold Pipeline.arrBufs
  rw [arrImage0, bigSep_insert (by decide), bigSep_singleton]
  rfl

variable (V : (c : Dev nD) → (b : Ref sig .tc) → Buf (Elt F) ((c : Thread nD τ).loc b))

/-- The windows' arrays one by one: the input at half shares for its two windows, the result at the full share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0]
  refine congrArg₂ _ ?_ (congrArg₂ _ ?_ ?_)
  · rw [(arr_whole0 0).set_eq_univ]; rfl
  · rw [(arr_whole0 1).set_eq_univ]; rfl
  · rw [(arr_whole0 2).set_eq_univ]; rfl

theorem unscopedRest0_congr (c : Dev nD) (V₁ V₂ : (b : Ref sig .tc) → Buf (Elt F) ((c : Thread nD τ).loc b))
    (h : ∀ b, b ≠ main_arg0 → b ≠ main_v0 → V₂ b = V₁ b) :
    (Pipeline.unscopedRest spec0 c V₁ : sProp 𝕄)
      = Pipeline.unscopedRest spec0 c V₂ := by
  unfold Pipeline.unscopedRest
  refine bigSep_congr fun b hb => ?_
  have hn := (Finset.mem_sdiff.mp hb).2
  rw [arrImage0] at hn
  rw [h b (fun e => hn (by rw [e]; decide)) (fun e => hn (by rw [e]; decide))]

/-- At entry the unscoped buffers are the region's arrays and the rest; at exit they join again with the result array replaced. -/
theorem entryArrays0 (c : Dev nD) :
    (unscopedBufs c (V c) : sProp 𝕄)
      ⊢ iprop((dat0 V c).arrays ((dat0 V c).arrAt · 0) ∗ Pipeline.unscopedRest spec0 c (V c)) := by
  rw [unscopedSplit0, arrBufs0_eq, arrays0_eq]
  refine sep_mono ?_ .rfl
  refine (sep_mono (pointsTo_share (PosShare.mem_left_op_right fullShare)).1 .rfl).trans ?_
  exact sep_assoc

theorem exitArrays0 (c : Dev nD)
    (V' : (b : Ref sig .tc) → Buf (Elt F) ((c : Thread nD τ).loc b)) (hout : V' main_v0 = (dat0 V c).arrAt 2 cfg0.N) (hrest : ∀ b, b ≠ main_v0 → V' b = V c b) :
    iprop((dat0 V c).arrays ((dat0 V c).arrAt · cfg0.N) ∗ Pipeline.unscopedRest spec0 c (V c)) ⊢ (unscopedBufs c V' : sProp 𝕄) := by
  rw [unscopedSplit0, arrBufs0_eq, arrays0_eq, unscopedRest0_congr c (V c) V' (fun b _ h => hrest b h)]
  refine sep_mono ?_ .rfl
  have h0 : (dat0 V c).arrAt 0 cfg0.N = V' main_arg0 := ((dat0 V c).arrAt_in 0 rfl _).trans ((A_eq0 V c 0).trans (hrest main_arg0 (by decide)).symm)
  have h1 : (dat0 V c).arrAt 1 cfg0.N = V' main_arg0 := ((dat0 V c).arrAt_in 1 rfl _).trans ((A_eq0 V c 1).trans (hrest main_arg0 (by decide)).symm)
  rw [h0, h1, ← hout]
  refine sep_assoc'.trans ?_
  exact sep_mono (pointsTo_share (PosShare.mem_left_op_right fullShare)).2 .rfl

end Cert.Kernel.Hand

end
-- ==== Proof.K.Reg0.lean ====
import proofs.«105459_j82652350644520_1_alg».proof.Proof.K.Vals
import proofs.«105459_j82652350644520_1_alg».proof.Proof.K.Arr0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After any point but the first the invariant gives the scoped buffers back, the accumulator's contents forgotten. -/
theorem Phi0_out (V : (c : Dev nD) → (b : Ref sig .tc) → Buf (Elt F) ((c : Thread nD τ).loc b)) (c : Dev nD) (t : Fin (cfg0.N + 1)) (ht : t.val ≠ 0) :
    (dat0 V c).Φ t ⊢ (Pipeline.scopedRest spec0 c : sProp 𝕄) := by
  rw [show (dat0 V c).Φ t = PhiS0 V c t.val (Nat.le_of_lt_succ t.isLt) from rfl, PhiS0_pos V c _ _ ht, scoped0_eq]
  iintro ⟨HS, Hoth⟩
  isplitl [HS]
  · iexists _; iexact HS
  iexact Hoth

set_option backward.isDefEq.respectTransparency.types false in
/-- The region as a segment of the entry function: entered with every unscoped buffer at the contents before it, left with its result array rewritten. -/
def reg0 : Pipeline.RegionSeg (pcfgs (F := F)) adm (pdats m) () defs₀ 𝒱₀ L lv (0 : Fin 3) where
  win := winFacts₀0
  block_pos := block_pos0
  stage_whole := stage_whole0
  K := PEmpty
  osem k := k.elim
  ho := Pipeline.OwnSemFacts.none _
  hbody c := (body_obligation0 (Ventry0 m) c).loose
  hwaits := Pipeline.hwaits_of_owed_zero _ _ _ _ L lv (0 : Fin 3) fun _ _ => rfl
  pre c := iprop(StableHlo.held (c : Thread nD τ) (Pipeline.ucRefs τ sig) (Went0 m c) ∗ R c)
  post c := iprop(StableHlo.held (c : Thread nD τ) (Pipeline.ucRefs τ sig) (Wexit0 m c) ∗ R c)
  X _ := BI.emp
  Y _ := BI.emp
  Z c := iprop(Pipeline.unscopedRest spec0 c (Ventry0 m c) ∗ ∃ r, prngReg c r)
  hentry c := by
    rw [Pipeline.ownSems0_none]
    have hsplit : (unscopedBufs c (Ventry0 m c) : sProp 𝕄)
        ⊢ iprop((pdats m (0 : Fin 3) c).arrays ((pdats m (0 : Fin 3) c).arrAt · 0)
          ∗ Pipeline.unscopedRest spec0 c (Ventry0 m c)) :=
      entryArrays0 (Ventry0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m (0 : Fin 3) c).Φ 0 = Pipeline.scopedRest spec0 c from rfl]
    iintro ⟨-, -, Hr⟩; iexact Hr
  hout c := by
    rw [Pipeline.ownSems0_none]
    have hΦ : (pdats m (0 : Fin 3) c).Φ (Fin.last (Pipeline.pin (pcfgs (F := F)) adm (0 : Fin 3)).N)
        ⊢ (Pipeline.scopedRest spec0 c : sProp 𝕄) :=
      Phi0_out (Ventry0 m) c (Fin.last cfg0.N) (by rw [Fin.val_last]; have : cfg0.N = 8 := N_0; omega)
    iintro H
    isplitr; · iempintro
    isplitr; · iempintro
    iapply hΦ
    iexact H
  hexit c := by
    have hjoin : iprop((pdats m (0 : Fin 3) c).arrays ((pdats m (0 : Fin 3) c).arrAt · (Pipeline.pin (pcfgs (F := F)) adm (0 : Fin 3)).N)
          ∗ Pipeline.unscopedRest spec0 c (Ventry0 m c))
        ⊢ (unscopedBufs c (Vexit0 m c) : sProp 𝕄) :=
      exitArrays0 (Ventry0 m) c (Vexit0 m c) (hexitV0 m c) (hrestV0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.K.Arr1.lean ====
import proofs.«105459_j82652350644520_1_alg».proof.Proof.K.Dat1
import Idealize.ShloMosaic.Lib.Pipeline.Launch
import Idealize.ShloMosaic.Lib.Pipeline.Cells
import Idealize.ShloMosaic.Rules.PointsTo
import Idealize.SL.RA.TreeShare
import Idealize.SL.BI.BigOp

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two input windows read one array: the buffers behind the three windows' arrays are the shared input and the result. -/
theorem arrImage1 : Finset.univ.image (Pipeline.arrRef spec1) = {main_arg1, main_v3} := by decide

theorem unscopedSplit1 (c : Dev nD) (V : (b : Ref sig .tc) → Buf (Elt F) ((c : Thread nD τ).loc b)) :
    (unscopedBufs c V : sProp 𝕄)
      = iprop(Pipeline.arrBufs spec1 c V
          ∗ Pipeline.unscopedRest spec1 c V) :=
  Pipeline.unscopedBufs_split₀ (P := Unit) (fun _ => cfg1) () winFacts₀1.arr_unscoped c V

theorem arrBufs1_eq (c : Dev nD) (V : (b : Ref sig .tc) → Buf (Elt F) ((c : Thread nD τ).loc b)) :
    (Pipeline.arrBufs spec1 c V : sProp 𝕄)
      = iprop((((c : Thread nD τ).loc main_arg1) ↦{fullShare} V main_arg1) ∗ (((c : Thread nD τ).loc main_v3) ↦{fullShare} V main_v3)) := by
  unfold Pipeline.arrBufs
  rw [arrImage1, bigSep_insert (by decide), bigSep_singleton]
  rfl

variable (V : (c : Dev nD) → (b : Ref sig .tc) → Buf (Elt F) ((c : Thread nD τ).loc b))

/-- The windows' arrays one by one: the input at half shares for its two windows, the result at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare.left} G 0) ∗ (((c : Thread nD τ).loc main_arg1) ↦{fullShare.right} G 1)
          ∗ (((c : Thread nD τ).loc main_v3) ↦{fullShare} G 2)) := by
  unfold Dat.arrays
  rw [bigSep_W1]
  refine congrArg₂ _ ?_ (congrArg₂ _ ?_ ?_)
  · rw [(arr_whole1 0).set_eq_univ]; rfl
  · rw [(arr_whole1 1).set_eq_univ]; rfl
  · rw [(arr_whole1 2).set_eq_univ]; rfl

theorem unscopedRest1_congr (c : Dev nD) (V₁ V₂ : (b : Ref sig .tc) → Buf (Elt F) ((c : Thread nD τ).loc b))
    (h : ∀ b, b ≠ main_arg1 → b ≠ main_v3 → V₂ b = V₁ b) :
    (Pipeline.unscopedRest spec1 c V₁ : sProp 𝕄)
      = Pipeline.unscopedRest spec1 c V₂ := by
  unfold Pipeline.unscopedRest
  refine bigSep_congr fun b hb => ?_
  have hn := (Finset.mem_sdiff.mp hb).2
  rw [arrImage1] at hn
  rw [h b (fun e => hn (by rw [e]; decide)) (fun e => hn (by rw [e]; decide))]

/-- At entry the unscoped buffers are the region's arrays and the rest; at exit they join again with the result array replaced. -/
theorem entryArrays1 (c : Dev nD) :
    (unscopedBufs c (V c) : sProp 𝕄)
      ⊢ iprop((dat1 V c).arrays ((dat1 V c).arrAt · 0) ∗ Pipeline.unscopedRest spec1 c (V c)) := by
  rw [unscopedSplit1, arrBufs1_eq, arrays1_eq]
  refine sep_mono ?_ .rfl
  refine (sep_mono (pointsTo_share (PosShare.mem_left_op_right fullShare)).1 .rfl).trans ?_
  exact sep_assoc

theorem exitArrays1 (c : Dev nD)
    (V' : (b : Ref sig .tc) → Buf (Elt F) ((c : Thread nD τ).loc b)) (hout : V' main_v3 = (dat1 V c).arrAt 2 cfg1.N) (hrest : ∀ b, b ≠ main_v3 → V' b = V c b) :
    iprop((dat1 V c).arrays ((dat1 V c).arrAt · cfg1.N) ∗ Pipeline.unscopedRest spec1 c (V c)) ⊢ (unscopedBufs c V' : sProp 𝕄) := by
  rw [unscopedSplit1, arrBufs1_eq, arrays1_eq, unscopedRest1_congr c (V c) V' (fun b _ h => hrest b h)]
  refine sep_mono ?_ .rfl
  have h0 : (dat1 V c).arrAt 0 cfg1.N = V' main_arg1 := ((dat1 V c).arrAt_in 0 rfl _).trans ((A_eq1 V c 0).trans (hrest main_arg1 (by decide)).symm)
  have h1 : (dat1 V c).arrAt 1 cfg1.N = V' main_arg1 := ((dat1 V c).arrAt_in 1 rfl _).trans ((A_eq1 V c 1).trans (hrest main_arg1 (by decide)).symm)
  rw [h0, h1, ← hout]
  refine sep_assoc'.trans ?_
  exact sep_mono (pointsTo_share (PosShare.mem_left_op_right fullShare)).2 .rfl

end Cert.Kernel.Hand

end
-- ==== Proof.K.Reg1.lean ====
import proofs.«105459_j82652350644520_1_alg».proof.Proof.K.Vals
import proofs.«105459_j82652350644520_1_alg».proof.Proof.K.Arr1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After any point but the first the invariant gives the scoped buffers back, the accumulator's contents forgotten. -/
theorem Phi1_out (V : (c : Dev nD) → (b : Ref sig .tc) → Buf (Elt F) ((c : Thread nD τ).loc b)) (c : Dev nD) (t : Fin (cfg1.N + 1)) (ht : t.val ≠ 0) :
    (dat1 V c).Φ t ⊢ (Pipeline.scopedRest spec1 c : sProp 𝕄) := by
  rw [show (dat1 V c).Φ t = PhiS1 V c t.val (Nat.le_of_lt_succ t.isLt) from rfl, PhiS1_pos V c _ _ ht, scoped1_eq]
  iintro ⟨HS, Hoth⟩
  isplitl [HS]
  · iexists _; iexact HS
  iexact Hoth

set_option backward.isDefEq.respectTransparency.types false in
/-- The region as a segment of the entry function: entered with every unscoped buffer at the contents before it, left with its result array rewritten. -/
def reg1 : Pipeline.RegionSeg (pcfgs (F := F)) adm (pdats m) () defs₀ 𝒱₀ L lv (1 : Fin 3) where
  win := winFacts₀1
  block_pos := block_pos1
  stage_whole := stage_whole1
  K := PEmpty
  osem k := k.elim
  ho := Pipeline.OwnSemFacts.none _
  hbody c := (body_obligation1 (Ventry1 m) c).loose
  hwaits := Pipeline.hwaits_of_owed_zero _ _ _ _ L lv (1 : Fin 3) fun _ _ => rfl
  pre c := iprop(StableHlo.held (c : Thread nD τ) (Pipeline.ucRefs τ sig) (Went1 m c) ∗ R c)
  post c := iprop(StableHlo.held (c : Thread nD τ) (Pipeline.ucRefs τ sig) (Wexit1 m c) ∗ R c)
  X _ := BI.emp
  Y _ := BI.emp
  Z c := iprop(Pipeline.unscopedRest spec1 c (Ventry1 m c) ∗ ∃ r, prngReg c r)
  hentry c := by
    rw [Pipeline.ownSems0_none]
    have hsplit : (unscopedBufs c (Ventry1 m c) : sProp 𝕄)
        ⊢ iprop((pdats m (1 : Fin 3) c).arrays ((pdats m (1 : Fin 3) c).arrAt · 0)
          ∗ Pipeline.unscopedRest spec1 c (Ventry1 m c)) :=
      entryArrays1 (Ventry1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m (1 : Fin 3) c).Φ 0 = Pipeline.scopedRest spec1 c from rfl]
    iintro ⟨-, -, Hr⟩; iexact Hr
  hout c := by
    rw [Pipeline.ownSems0_none]
    have hΦ : (pdats m (1 : Fin 3) c).Φ (Fin.last (Pipeline.pin (pcfgs (F := F)) adm (1 : Fin 3)).N)
        ⊢ (Pipeline.scopedRest spec1 c : sProp 𝕄) :=
      Phi1_out (Ventry1 m) c (Fin.last cfg1.N) (by rw [Fin.val_last]; have : cfg1.N = 8 := N_1; omega)
    iintro H
    isplitr; · iempintro
    isplitr; · iempintro
    iapply hΦ
    iexact H
  hexit c := by
    have hjoin : iprop((pdats m (1 : Fin 3) c).arrays ((pdats m (1 : Fin 3) c).arrAt · (Pipeline.pin (pcfgs (F := F)) adm (1 : Fin 3)).N)
          ∗ Pipeline.unscopedRest spec1 c (Ventry1 m c))
        ⊢ (unscopedBufs c (Vexit1 m c) : sProp 𝕄) :=
      exitArrays1 (Ventry1 m) c (Vexit1 m c) (hexitV1 m c) (hrestV1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.K.Arr2.lean ====
import proofs.«105459_j82652350644520_1_alg».proof.Proof.K.Dat2
import Idealize.ShloMosaic.Lib.Pipeline.Launch
import Idealize.ShloMosaic.Lib.Pipeline.Cells
import Idealize.ShloMosaic.Rules.PointsTo
import Idealize.SL.RA.TreeShare
import Idealize.SL.BI.BigOp

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three windows read three distinct arrays. -/
theorem arrImage2 : Finset.univ.image (Pipeline.arrRef spec2) = {main_arg0, main_arg1, main_v6} := by decide

theorem unscopedSplit2 (c : Dev nD) (V : (b : Ref sig .tc) → Buf (Elt F) ((c : Thread nD τ).loc b)) :
    (unscopedBufs c V : sProp 𝕄)
      = iprop(Pipeline.arrBufs spec2 c V
          ∗ Pipeline.unscopedRest spec2 c V) :=
  Pipeline.unscopedBufs_split₀ (P := Unit) (fun _ => cfg2) () winFacts2.arr_unscoped c V

theorem arrBufs2_eq (c : Dev nD) (V : (b : Ref sig .tc) → Buf (Elt F) ((c : Thread nD τ).loc b)) :
    (Pipeline.arrBufs spec2 c V : sProp 𝕄)
      = iprop((((c : Thread nD τ).loc main_arg0) ↦{fullShare} V main_arg0) ∗ (((c : Thread nD τ).loc main_arg1) ↦{fullShare} V main_arg1)
          ∗ (((c : Thread nD τ).loc main_v6) ↦{fullShare} V main_v6)) := by
  unfold Pipeline.arrBufs
  rw [arrImage2, bigSep_insert (by decide), bigSep_insert (by decide), bigSep_singleton]
  rfl

variable (V : (c : Dev nD) → (b : Ref sig .tc) → Buf (Elt F) ((c : Thread nD τ).loc b))

theorem arrays2_eq (c : Dev nD) (G : (w : Fin cfg2.W) → Buf (Elt F) ((cfg2.win w).arr.view.loc (c : Thread nD τ))) :
    ((dat2 V c).arrays G : sProp 𝕄)
      = iprop((((c : Thread nD τ).loc main_arg0) ↦{fullShare} G 0) ∗ (((c : Thread nD τ).loc main_arg1) ↦{fullShare} G 1)
          ∗ (((c : Thread nD τ).loc main_v6) ↦{fullShare} G 2)) := by
  unfold Dat.arrays
  rw [bigSep_W2]
  refine congrArg₂ _ ?_ (congrArg₂ _ ?_ ?_)
  · rw [(arr_whole2 0).set_eq_univ]; rfl
  · rw [(arr_whole2 1).set_eq_univ]; rfl
  · rw [(arr_whole2 2).set_eq_univ]; rfl

theorem unscopedRest2_congr (c : Dev nD) (V₁ V₂ : (b : Ref sig .tc) → Buf (Elt F) ((c : Thread nD τ).loc b))
    (h : ∀ b, b ≠ main_v6 → V₂ b = V₁ b) :
    (Pipeline.unscopedRest spec2 c V₁ : sProp 𝕄)
      = Pipeline.unscopedRest spec2 c V₂ := by
  unfold Pipeline.unscopedRest
  refine bigSep_congr fun b hb => ?_
  have hn := (Finset.mem_sdiff.mp hb).2
  rw [arrImage2] at hn
  rw [h b (fun e => hn (by rw [e]; decide))]

theorem entryArrays2 (c : Dev nD) :
    (unscopedBufs c (V c) : sProp 𝕄)
      ⊢ iprop((dat2 V c).arrays ((dat2 V c).arrAt · 0) ∗ Pipeline.unscopedRest spec2 c (V c)) := by
  rw [unscopedSplit2, arrBufs2_eq, arrays2_eq]
  exact sep_mono .rfl .rfl

theorem exitArrays2 (c : Dev nD)
    (V' : (b : Ref sig .tc) → Buf (Elt F) ((c : Thread nD τ).loc b)) (hout : V' main_v6 = (dat2 V c).arrAt 2 cfg2.N) (hrest : ∀ b, b ≠ main_v6 → V' b = V c b) :
    iprop((dat2 V c).arrays ((dat2 V c).arrAt · cfg2.N) ∗ Pipeline.unscopedRest spec2 c (V c)) ⊢ (unscopedBufs c V' : sProp 𝕄) := by
  rw [unscopedSplit2, arrBufs2_eq, arrays2_eq, unscopedRest2_congr c (V c) V' hrest]
  have h0 : (dat2 V c).arrAt 0 cfg2.N = V' main_arg0 := ((dat2 V c).arrAt_in 0 rfl _).trans ((A_eq2 V c 0).trans (hrest main_arg0 (by decide)).symm)
  have h1 : (dat2 V c).arrAt 1 cfg2.N = V' main_arg1 := ((dat2 V c).arrAt_in 1 rfl _).trans ((A_eq2 V c 1).trans (hrest main_arg1 (by decide)).symm)
  rw [h0, h1, ← hout]

end Cert.Kernel.Hand

end
-- ==== Proof.K.Reg2.lean ====
import proofs.«105459_j82652350644520_1_alg».proof.Proof.K.Vals
import proofs.«105459_j82652350644520_1_alg».proof.Proof.K.Arr2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After any point but the first the invariant gives the scoped buffers back, the accumulator's contents forgotten. -/
theorem Phi2_out (V : (c : Dev nD) → (b : Ref sig .tc) → Buf (Elt F) ((c : Thread nD τ).loc b)) (c : Dev nD) (t : Fin (cfg2.N + 1)) (ht : t.val ≠ 0) :
    (dat2 V c).Φ t ⊢ (Pipeline.scopedRest spec2 c : sProp 𝕄) := by
  rw [show (dat2 V c).Φ t = PhiS2 V c t.val (Nat.le_of_lt_succ t.isLt) from rfl, PhiS2_pos V c _ _ ht, scoped2_eq]
  iintro ⟨HS, Hoth⟩
  isplitl [HS]
  · iexists _; iexact HS
  iexact Hoth

set_option backward.isDefEq.respectTransparency.types false in
/-- The region as a segment of the entry function: entered with every unscoped buffer at the contents before it, left with its result array rewritten. -/
def reg2 : Pipeline.RegionSeg (pcfgs (F := F)) adm (pdats m) () defs₀ 𝒱₀ L lv (2 : Fin 3) where
  win := winFacts₀2
  block_pos := block_pos2
  stage_whole := stage_whole2
  K := PEmpty
  osem k := k.elim
  ho := Pipeline.OwnSemFacts.none _
  hbody c := (body_obligation2 (Ventry2 m) c).loose
  hwaits := Pipeline.hwaits_of_owed_zero _ _ _ _ L lv (2 : Fin 3) fun _ _ => rfl
  pre c := iprop(StableHlo.held (c : Thread nD τ) (Pipeline.ucRefs τ sig) (Went2 m c) ∗ R c)
  post c := iprop(StableHlo.held (c : Thread nD τ) (Pipeline.ucRefs τ sig) (Wexit2 m c) ∗ R c)
  X _ := BI.emp
  Y _ := BI.emp
  Z c := iprop(Pipeline.unscopedRest spec2 c (Ventry2 m c) ∗ ∃ r, prngReg c r)
  hentry c := by
    rw [Pipeline.ownSems0_none]
    have hsplit : (unscopedBufs c (Ventry2 m c) : sProp 𝕄)
        ⊢ iprop((pdats m (2 : Fin 3) c).arrays ((pdats m (2 : Fin 3) c).arrAt · 0)
          ∗ Pipeline.unscopedRest spec2 c (Ventry2 m c)) :=
      entryArrays2 (Ventry2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m (2 : Fin 3) c).Φ 0 = Pipeline.scopedRest spec2 c from rfl]
    iintro ⟨-, -, Hr⟩; iexact Hr
  hout c := by
    rw [Pipeline.ownSems0_none]
    have hΦ : (pdats m (2 : Fin 3) c).Φ (Fin.last (Pipeline.pin (pcfgs (F := F)) adm (2 : Fin 3)).N)
        ⊢ (Pipeline.scopedRest spec2 c : sProp 𝕄) :=
      Phi2_out (Ventry2 m) c (Fin.last cfg2.N) (by rw [Fin.val_last]; have : cfg2.N = 8 := N_2; omega)
    iintro H
    isplitr; · iempintro
    isplitr; · iempintro
    iapply hΦ
    iexact H
  hexit c := by
    have hjoin : iprop((pdats m (2 : Fin 3) c).arrays ((pdats m (2 : Fin 3) c).arrAt · (Pipeline.pin (pcfgs (F := F)) adm (2 : Fin 3)).N)
          ∗ Pipeline.unscopedRest spec2 c (Ventry2 m c))
        ⊢ (unscopedBufs c (Vexit2 m c) : sProp 𝕄) :=
      exitArrays2 (Ventry2 m) c (Vexit2 m c) (hexitV2 m c) (hrestV2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.K.Main.lean ====
import proofs.«105459_j82652350644520_1_alg».proof.Proof.K.Reg0
import proofs.«105459_j82652350644520_1_alg».proof.Proof.K.Reg1
import proofs.«105459_j82652350644520_1_alg».proof.Proof.K.Reg2
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The entry function's six items in order: a region per pallas_call, each followed by its stretch of host operations. -/
abbrev segs : List (Pipeline.Seg (pcfgs (F := F)) adm (pdats m) () defs₀ 𝒱₀ L lv) :=
  [ .region (reg0 m),
    .host (hseg hostOps1 hostOps1_sub hostOps1_fresh (Wexit0 m)),
    .region (reg1 m),
    .host (hseg hostOps2 hostOps2_sub hostOps2_fresh (Wexit1 m)),
    .region (reg2 m),
    .host (hseg hostOps3 hostOps3_sub hostOps3_fresh (Wexit2 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Went0 m c) ∗ R c))
    (Tₙ := fun c => iprop(StableHlo.held (c : Thread nD τ) (Pipeline.ucRefs τ sig) (Wend m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (Wend m c) ∗ R c)
        ⊢ (iprop(iprop(StableHlo.held (c : Thread nD τ) (Pipeline.ucRefs τ sig) (Wend m c) ∗ ∃ r, prngReg c r)
            ∗ ∃ W, owes (c : Thread nD τ) (0 : CellTallies nD τ sig Unit) W) : sProp 𝕄)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Went0 m c)
        from Pipeline.unscopedBufs_held c (Went0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h => h)

end Cert.Kernel.Hand

end
-- ==== Proof.K.Ends.lean ====
import proofs.«105459_j82652350644520_1_alg».proof.Proof.K.Vals
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.ShloMosaic.Pipeline (Dat Cfg Window BodyObligation cellOf)

variable {F : FTy → Type} [FloatOps F]
variable (m : (ℓ : Loc nD τ sig) → Buf (Elt F) ℓ)

theorem Went1_of (c : Dev nD) (r : Ref sig .tc) (h : r ∉ hostOps1_W) : Went1 m c r = Wexit0 m c r :=
  StableHlo.after_of_writes_sub hostOps1 _ hostOps1_writes h
theorem Went2_of (c : Dev nD) (r : Ref sig .tc) (h : r ∉ hostOps2_W) : Went2 m c r = Wexit1 m c r :=
  StableHlo.after_of_writes_sub hostOps2 _ hostOps2_writes h
theorem Wend_of (c : Dev nD) (r : Ref sig .tc) (h : r ∉ hostOps3_W) : Wend m c r = Wexit2 m c r :=
  StableHlo.after_of_writes_sub hostOps3 _ hostOps3_writes h

/-- A buffer that is no region's result array and that no host operation writes holds its launch contents at every boundary. -/
theorem Went1_launch (c : Dev nD) (r : Ref sig .tc) (h0 : r ≠ main_v0) (h1 : r ∉ hostOps1_W) :
    Went1 m c r = m ((c : Thread nD τ).loc r) :=
  (Went1_of m c r h1).trans ((hrestV0 m c r h0).trans rfl)

theorem Went2_launch (c : Dev nD) (r : Ref sig .tc) (h0 : r ≠ main_v0) (h1 : r ∉ hostOps1_W) (h3 : r ≠ main_v3)
    (h2 : r ∉ hostOps2_W) : Went2 m c r = m ((c : Thread nD τ).loc r) :=
  (Went2_of m c r h2).trans ((hrestV1 m c r h3).trans (Went1_launch m c r h0 h1))

theorem Wend_launch (c : Dev nD) (r : Ref sig .tc) (h0 : r ≠ main_v0) (h1 : r ∉ hostOps1_W) (h3 : r ≠ main_v3)
    (h2 : r ∉ hostOps2_W) (h6 : r ≠ main_v6) (h3' : r ∉ hostOps3_W) : Wend m c r = m ((c : Thread nD τ).loc r) :=
  (Wend_of m c r h3').trans ((hrestV2 m c r h6).trans (Went2_launch m c r h0 h1 h3 h2))

theorem Wend_arg0 (c : Dev nD) : Wend m c main_arg0 = m ((c : Thread nD τ).loc main_arg0) :=
  Wend_launch m c main_arg0 (by decide) (by decide) (by decide) (by decide) (by decide) (by decide)

theorem Wend_arg1 (c : Dev nD) : Wend m c main_arg1 = m ((c : Thread nD τ).loc main_arg1) :=
  Wend_launch m c main_arg1 (by decide) (by decide) (by decide) (by decide) (by decide) (by decide)

end Cert.Kernel.Hand

end
-- ==== Proof.KI.Runs.lean ====
import proofs.«105459_j82652350644520_1_alg».proof.Proof.Gen.KernelIdeal.Launch
import proofs.«105459_j82652350644520_1_alg».proof.Proof.Gen.KernelIdeal.Skeleton
import proofs.«105459_j82652350644520_1_alg».proof.Proof.Gen.KernelIdeal.Loops
import proofs.«105459_j82652350644520_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch and the copy-out branch of the body, as conditions on the grid point. -/
abbrev isFirst (i : grid0.Coords) : Prop := (Scalar.cmpi .ne (Scalar.extui (Scalar.cmpi .eq (BitVec.ofNat 32 (i 0).val) 0#32)) 0#32) = 1#1
abbrev isLast (i : grid0.Coords) : Prop := k0_cond2 i = 1#1

theorem isFirst_iff : ∀ t : Fin grid0.N, isFirst (grid0.coords t) ↔ t.val % 8 = 0 := by decide +kernel
theorem isLast_iff : ∀ t : Fin grid0.N, isLast (grid0.coords t) ↔ t.val % 8 = 7 := by decide +kernel

theorem fin_lt (t : Fin grid0.N) : t.val < 8 := lt_of_lt_of_eq t.isLt N_0
theorem notFirst_of_pos (t : Fin grid0.N) (h : t.val ≠ 0) : ¬isFirst (grid0.coords t) := fun hc => by
  have := fin_lt t; have := (isFirst_iff t).mp hc; omega
theorem notLast_of_ne (t : Fin grid0.N) (h : t.val ≠ 7) : ¬isLast (grid0.coords t) := fun hc => by
  have := fin_lt t; have := (isLast_iff t).mp hc; omega
theorem isLast_of_eq (t : Fin grid0.N) (h : t.val = 7) : isLast (grid0.coords t) := (isLast_iff t).mpr (by rw [h])
theorem isFirst_of_eq (t : Fin grid0.N) (h : t.val = 0) : isFirst (grid0.coords t) := (isFirst_iff t).mpr (by rw [h])

section Point
variable (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole)

set_option maxHeartbeats 4000000 in
/-- First point: the accumulator is reset and then takes the eight trips' sums; `LA` is what was stored into it, and the accumulator is handed back at the value of those pieces. -/
noncomputable def runFirst (h0 : isFirst i) (h1 : ¬isLast i) (x0 : Vec F S1024x256 .f32) (x1 : Vec F S8192x256 .f32) :
    { LA : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ owns (c : Thread nD τ) arg4 fullShare (View.canon LA)) -∗ K ⟨⟩))
          ⊢ wp frame (wpE (defs₀ (F := F)) Variants.none c none) E (cc0_kernel i arg1 harg1 arg2 harg2 arg3 harg3 arg4 harg4) K } := by
  refine ⟨?_, fun xo E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact h0 | exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr
    swap; · iexact HS
    ipureintro; refine View.read_writes_eq_canon (Val := Elt F) _ _ _ ?_; exact View.cover_of_tiledL _ S1x1.size (by sl_kernel_rfl)

set_option maxHeartbeats 4000000 in
/-- A middle point: the accumulator, found at `xs`, takes the eight trips' sums. -/
noncomputable def runMid (h0 : ¬isFirst i) (h1 : ¬isLast i) (x0 : Vec F S1024x256 .f32) (x1 : Vec F S8192x256 .f32) (xs : Vec F S1x1 .f32) :
    { LA : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ owns (c : Thread nD τ) arg3 fullShare xo ∗ owns (c : Thread nD τ) arg4 fullShare (View.canon LA)) -∗ K ⟨⟩))
          ⊢ wp frame (wpE (defs₀ (F := F)) Variants.none c none) E (cc0_kernel i arg1 harg1 arg2 harg2 arg3 harg3 arg4 harg4) K } := by
  refine ⟨?_, fun xo E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact h0 | exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr
    swap; · iexact HS
    ipureintro; refine View.read_writes_eq_canon (Val := Elt F) _ _ _ ?_; exact View.cover_of_tiledL _ S1x1.size (by sl_kernel_rfl)

set_option maxHeartbeats 4000000 in
/-- The last point: as a middle point, and then the accumulator is copied into the result's block (`LO`). -/
noncomputable def runLast (h0 : ¬isFirst i) (h1 : isLast i) (x0 : Vec F S1024x256 .f32) (x1 : Vec F S8192x256 .f32) (xs : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ owns (c : Thread nD τ) arg3 fullShare (View.canon LO) ∗ owns (c : Thread nD τ) arg4 fullShare (View.canon LA)) -∗ K ⟨⟩))
          ⊢ wp frame (wpE (defs₀ (F := F)) Variants.none c none) E (cc0_kernel i arg1 harg1 arg2 harg2 arg3 harg3 arg4 harg4) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact h0 | exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro; refine View.read_writes_eq_canon (Val := Elt F) _ _ _ ?_; exact View.cover_of_tiledL _ S1x1.size (by sl_kernel_rfl)
    iexists _; isplitr
    swap; · iexact HS
    ipureintro; refine View.read_writes_eq_canon (Val := Elt F) _ _ _ ?_; exact View.cover_of_tiledL _ S1x1.size (by sl_kernel_rfl)

/-- What each run leaves in the accumulator and, at the last point, in the result's block: the pieces it stored, read as one value. -/
def accFirst (h0 : isFirst i) (h1 : ¬isLast i) (x0 : Vec F S1024x256 .f32) (x1 : Vec F S8192x256 .f32) : Vec F S1x1 .f32 :=
  View.canon (runFirst c i arg1 harg1 arg2 harg2 arg3 harg3 arg4 harg4 h0 h1 x0 x1).1
def accMid (h0 : ¬isFirst i) (h1 : ¬isLast i) (x0 : Vec F S1024x256 .f32) (x1 : Vec F S8192x256 .f32) (xs : Vec F S1x1 .f32) : Vec F S1x1 .f32 :=
  View.canon (runMid c i arg1 harg1 arg2 harg2 arg3 harg3 arg4 harg4 h0 h1 x0 x1 xs).1
def accLast (h0 : ¬isFirst i) (h1 : isLast i) (x0 : Vec F S1024x256 .f32) (x1 : Vec F S8192x256 .f32) (xs : Vec F S1x1 .f32) : Vec F S1x1 .f32 :=
  View.canon (runLast c i arg1 harg1 arg2 harg2 arg3 harg3 arg4 harg4 h0 h1 x0 x1 xs).2.1
def outLast (h0 : ¬isFirst i) (h1 : isLast i) (x0 : Vec F S1024x256 .f32) (x1 : Vec F S8192x256 .f32) (xs : Vec F S1x1 .f32) : Vec F S1x1 .f32 :=
  View.canon (runLast c i arg1 harg1 arg2 harg2 arg3 harg3 arg4 harg4 h0 h1 x0 x1 xs).1

end Point

section Grid
variable (c : Dev nD) (b1 : Fin grid0.N → Memref sig .tc .vmem S1024x256 .f32) (hb1 : ∀ t, (b1 t).IsWhole)
  (b2 : Fin grid0.N → Memref sig .tc .vmem S8192x256 .f32) (hb2 : ∀ t, (b2 t).IsWhole)
  (b3 : Fin grid0.N → Memref sig .tc .vmem S1x1 .f32) (hb3 : ∀ t, (b3 t).IsWhole)
  (a4 : Memref sig .tc .vmem S1x1 .f32) (ha4 : a4.IsWhole)
  (X0 : Fin grid0.N → Vec F S1024x256 .f32) (X1 : Fin grid0.N → Vec F S8192x256 .f32) (junk : Vec F S1x1 .f32)

/-- The result's block (consulted at the last point only) and the accumulator after the body at position `n`, for buffers and input blocks given point by point: the first point's run, then each point's run from what the point before left. -/
def outsAt : (n : ℕ) → n < grid0.N → Vec F S1x1 .f32 × Vec F S1x1 .f32
  | 0, hn => (junk,
      accFirst c (grid0.coords ⟨0, hn⟩) (b1 ⟨0, hn⟩) (hb1 ⟨0, hn⟩) (b2 ⟨0, hn⟩) (hb2 ⟨0, hn⟩) (b3 ⟨0, hn⟩) (hb3 ⟨0, hn⟩) a4 ha4 (isFirst_of_eq ⟨0, hn⟩ rfl) (notLast_of_ne ⟨0, hn⟩ (by show (0 : ℕ) ≠ 7; decide)) (X0 ⟨0, hn⟩) (X1 ⟨0, hn⟩))
  | n + 1, hn =>
    if h7 : n + 1 = 7 then
      (outLast c (grid0.coords ⟨n + 1, hn⟩) (b1 ⟨n + 1, hn⟩) (hb1 ⟨n + 1, hn⟩) (b2 ⟨n + 1, hn⟩) (hb2 ⟨n + 1, hn⟩) (b3 ⟨n + 1, hn⟩) (hb3 ⟨n + 1, hn⟩) a4 ha4 (notFirst_of_pos ⟨n + 1, hn⟩ (Nat.succ_ne_zero n)) (isLast_of_eq ⟨n + 1, hn⟩ h7) (X0 ⟨n + 1, hn⟩) (X1 ⟨n + 1, hn⟩) (outsAt n (Nat.lt_of_succ_lt hn)).2,
       accLast c (grid0.coords ⟨n + 1, hn⟩) (b1 ⟨n + 1, hn⟩) (hb1 ⟨n + 1, hn⟩) (b2 ⟨n + 1, hn⟩) (hb2 ⟨n + 1, hn⟩) (b3 ⟨n + 1, hn⟩) (hb3 ⟨n + 1, hn⟩) a4 ha4 (notFirst_of_pos ⟨n + 1, hn⟩ (Nat.succ_ne_zero n)) (isLast_of_eq ⟨n + 1, hn⟩ h7) (X0 ⟨n + 1, hn⟩) (X1 ⟨n + 1, hn⟩) (outsAt n (Nat.lt_of_succ_lt hn)).2)
    else
      (junk,
       accMid c (grid0.coords ⟨n + 1, hn⟩) (b1 ⟨n + 1, hn⟩) (hb1 ⟨n + 1, hn⟩) (b2 ⟨n + 1, hn⟩) (hb2 ⟨n + 1, hn⟩) (b3 ⟨n + 1, hn⟩) (hb3 ⟨n + 1, hn⟩) a4 ha4 (notFirst_of_pos ⟨n + 1, hn⟩ (Nat.succ_ne_zero n)) (notLast_of_ne ⟨n + 1, hn⟩ h7) (X0 ⟨n + 1, hn⟩) (X1 ⟨n + 1, hn⟩) (outsAt n (Nat.lt_of_succ_lt hn)).2)

theorem outsAt_first (t : Fin grid0.N) (h : t.val = 0) :
    outsAt c b1 hb1 b2 hb2 b3 hb3 a4 ha4 X0 X1 junk t.val t.isLt = (junk,
      accFirst c (grid0.coords t) (b1 t) (hb1 t) (b2 t) (hb2 t) (b3 t) (hb3 t) a4 ha4 (isFirst_of_eq t h) (notLast_of_ne t (by omega)) (X0 t) (X1 t)) := by
  obtain ⟨n, hn⟩ := t
  cases n with
  | zero => rfl
  | succ n => exact absurd h (Nat.succ_ne_zero n)

theorem outsAt_mid (t : Fin grid0.N) (h0 : t.val ≠ 0) (h7 : t.val ≠ 7) :
    outsAt c b1 hb1 b2 hb2 b3 hb3 a4 ha4 X0 X1 junk t.val t.isLt = (junk,
      accMid c (grid0.coords t) (b1 t) (hb1 t) (b2 t) (hb2 t) (b3 t) (hb3 t) a4 ha4 (notFirst_of_pos t h0) (notLast_of_ne t h7) (X0 t) (X1 t) (outsAt c b1 hb1 b2 hb2 b3 hb3 a4 ha4 X0 X1 junk (t.val - 1) (Nat.lt_of_le_of_lt (Nat.sub_le _ _) t.isLt)).2) := by
  obtain ⟨n, hn⟩ := t
  cases n with
  | zero => exact absurd rfl h0
  | succ n => exact (dif_neg h7).trans rfl

theorem outsAt_last (t : Fin grid0.N) (h0 : t.val ≠ 0) (h7 : t.val = 7) :
    outsAt c b1 hb1 b2 hb2 b3 hb3 a4 ha4 X0 X1 junk t.val t.isLt = (outLast c (grid0.coords t) (b1 t) (hb1 t) (b2 t) (hb2 t) (b3 t) (hb3 t) a4 ha4 (notFirst_of_pos t h0) (isLast_of_eq t h7) (X0 t) (X1 t) (outsAt c b1 hb1 b2 hb2 b3 hb3 a4 ha4 X0 X1 junk (t.val - 1) (Nat.lt_of_le_of_lt (Nat.sub_le _ _) t.isLt)).2,
      accLast c (grid0.coords t) (b1 t) (hb1 t) (b2 t) (hb2 t) (b3 t) (hb3 t) a4 ha4 (notFirst_of_pos t h0) (isLast_of_eq t h7) (X0 t) (X1 t) (outsAt c b1 hb1 b2 hb2 b3 hb3 a4 ha4 X0 X1 junk (t.val - 1) (Nat.lt_of_le_of_lt (Nat.sub_le _ _) t.isLt)).2) := by
  obtain ⟨n, hn⟩ := t
  cases n with
  | zero => exact absurd rfl h0
  | succ n => exact (dif_pos h7).trans rfl

end Grid

end Cert.KernelIdeal.Hand

end
-- ==== Proof.KI.Dat0.lean ====
import proofs.«105459_j82652350644520_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬isLast (grid0.coords t) → cfg0.idle 2 (grid0.coords t) = true := by decide +kernel
theorem noFlush0_2 : ∀ t : Fin cfg0.N, ¬isLast (grid0.coords t) → (cfg0.win 2).flush t = false := by decide +kernel
theorem live0_2 : ∀ t : Fin cfg0.N, isLast (grid0.coords t) → cfg0.idle 2 (grid0.coords t) = false := by decide +kernel

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev acc0 : Memref sig .tc .vmem S1x1 .f32 := Memref.whole cc0_scratch0

/-- The body at point `t` is the shared kernel function at this region's buffers. -/
theorem bodyAt0_eq (t : Fin cfg0.N) :
    bodyAt0 (F := F) t = cc0_kernel (grid0.coords t) (ms0_0 t) (hs0_0 t) (ms0_1 t) (hs0_1 t) (ms0_2 t) (hs0_2 t) acc0 (Memref.isWhole_whole _) := rfl

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev outV0 : View sig .tc .vmem S1x1 .f32 := (Memref.whole cc0_stg2_0 : Memref sig .tc .vmem S1x1 .f32).view

/-- The accumulation over this region's grid: its buffers and its input blocks, point by point. -/
def outsAt0 (c : Dev nD) : (n : ℕ) → n < cfg0.N → Vec F S1x1 .f32 × Vec F S1x1 .f32 :=
  outsAt c ms0_0 hs0_0 ms0_1 hs0_1 ms0_2 hs0_2 acc0 (Memref.isWhole_whole _) (iblk0 V c 0) (iblk0 V c 1) (outV0.read (Elt F) outV0.junk)

/-- The core's scoped buffers that are neither this region's staging buffers nor its accumulator, each at some contents. -/
abbrev others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem scoped0_eq (c : Dev nD) :
    (Pipeline.scopedRest spec0 c : sProp 𝕄)
      = iprop((∃ d, owns (c : Thread nD τ) acc0 fullShare d) ∗ others0 (F := F) c) := by
  unfold Pipeline.scopedRest
  rw [bigSep_erase (i := cc0_scratch0) (by decide)]
  simp only [acc0, owns_whole]; try rfl

/-- The invariant before position `n`: at first the scoped buffers at anything, afterwards the accumulator at what the point before left. -/
def PhiS0 (c : Dev nD) : (n : ℕ) → n ≤ cfg0.N → sProp 𝕄
  | 0, _ => Pipeline.scopedRest spec0 c
  | n + 1, hn => iprop(owns (c : Thread nD τ) acc0 fullShare ((outsAt0 V c n hn).2) ∗ others0 (F := F) c)

theorem PhiS0_zero (c : Dev nD) (n : ℕ) (h : n ≤ cfg0.N) (hz : n = 0) :
    PhiS0 V c n h = Pipeline.scopedRest spec0 c := by
  subst hz; rfl
theorem PhiS0_succ (c : Dev nD) (n : ℕ) (hn : n < cfg0.N) :
    PhiS0 V c (n + 1) hn = iprop(owns (c : Thread nD τ) acc0 fullShare ((outsAt0 V c n hn).2) ∗ others0 (F := F) c) := rfl
theorem PhiS0_pos (c : Dev nD) (n : ℕ) (h : n ≤ cfg0.N) (hz : n ≠ 0) :
    PhiS0 V c n h = iprop(owns (c : Thread nD τ) acc0 fullShare ((outsAt0 V c (n - 1) (by omega)).2) ∗ others0 (F := F) c) := by
  cases n with
  | zero => exact absurd rfl hz
  | succ n => rfl

/-- The region's proof data entered at contents `V`; `q` is the share of its array each input window holds. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q w := if w.val = 0 then fullShare.left else fullShare.right
  owed _ := 0

theorem A_eq0 (c : Dev nD) (w : Fin cfg0.W) : (dat0 V c).A w = V c (Pipeline.arrRef spec0 w) := by dsimp only [dat0]
theorem PhiS0_castSucc (c : Dev nD) (t : Fin cfg0.N) : (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
/-- An input window's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end Cert.KernelIdeal.Hand

end
-- ==== Proof.KI.Obl0.lean ====
import proofs.«105459_j82652350644520_1_alg».proof.Proof.KI.Dat0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hN : t.val < 8 := lt_of_lt_of_eq t.isLt (show cfg0.N = 8 from N_0)
  by_cases hz : t.val = 0
  · have hl : ¬isLast (grid0.coords t) := notLast_of_ne t (by omega)
    rw [Dat.leavesExact_idle (dat0 V c) 2 t (idle0_2 t hl) (noFlush0_2 t hl)]
    rw [PhiS0_castSucc V c t, PhiS0_zero V c _ _ hz, scoped0_eq]
    unfold outsAt0
    rw [outsAt_first _ _ _ _ _ _ _ _ _ _ _ _ t hz]
    unfold accFirst
    iintro ⟨⟨HS, Hoth⟩, Ho, ⟨%d0, H0⟩, ⟨%d1, H1⟩, ⟨%d2, H2⟩⟩
    iapply ((runFirst c (grid0.coords t) _ _ _ _ _ _ _ _ (isFirst_of_eq t hz) hl (iblk0 V c 0 t) (iblk0 V c 1 t)).2 _ Set.univ _)
    isplitl [H0]; · iexact H0
    isplitl [H1]; · iexact H1
    isplitl [H2]; · iexact H2
    isplitl [HS]; · iexact HS
    iintro ⟨H0, H1, H2, HS⟩
    isplitl [HS Hoth]
    · isplitl [HS]; · iexact HS
      iexact Hoth
    isplitl [Ho]; · iexact Ho
    isplitl [H0]; · iexact H0
    isplitl [H1]; · iexact H1
    iexists _; iexact H2
  · by_cases h7 : t.val = 7
    · have hl : isLast (grid0.coords t) := isLast_of_eq t h7
      rw [show (dat0 V c).leavesExact 2 t = owns (c : Thread nD τ) (ms0_2 t) fullShare ((dat0 V c).after 2 t) from by
        unfold Dat.leavesExact; rw [live0_2 t hl], after0_2]
      rw [PhiS0_castSucc V c t, PhiS0_pos V c _ _ hz]
      unfold outsAt0
      rw [outsAt_last _ _ _ _ _ _ _ _ _ _ _ _ t hz h7]
      unfold outLast accLast
      iintro ⟨⟨HS, Hoth⟩, Ho, ⟨%d0, H0⟩, ⟨%d1, H1⟩, ⟨%d2, H2⟩⟩
      iapply ((runLast c (grid0.coords t) _ _ _ _ _ _ _ _ (notFirst_of_pos t hz) hl (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexact H2
    · have hl : ¬isLast (grid0.coords t) := notLast_of_ne t h7
      rw [Dat.leavesExact_idle (dat0 V c) 2 t (idle0_2 t hl) (noFlush0_2 t hl)]
      rw [PhiS0_castSucc V c t, PhiS0_pos V c _ _ hz]
      unfold outsAt0
      rw [outsAt_mid _ _ _ _ _ _ _ _ _ _ _ _ t hz h7]
      unfold accMid
      iintro ⟨⟨HS, Hoth⟩, Ho, ⟨%d0, H0⟩, ⟨%d1, H1⟩, ⟨%d2, H2⟩⟩
      iapply ((runMid c (grid0.coords t) _ _ _ _ _ _ _ _ (notFirst_of_pos t hz) hl (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Dat1.lean ====
import proofs.«105459_j82652350644520_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬isLast (grid1.coords t) → cfg1.idle 2 (grid1.coords t) = true := by decide +kernel
theorem noFlush1_2 : ∀ t : Fin cfg1.N, ¬isLast (grid1.coords t) → (cfg1.win 2).flush t = false := by decide +kernel
theorem live1_2 : ∀ t : Fin cfg1.N, isLast (grid1.coords t) → cfg1.idle 2 (grid1.coords t) = false := by decide +kernel

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev acc1 : Memref sig .tc .vmem S1x1 .f32 := Memref.whole cc1_scratch0

/-- The body at point `t` is the shared kernel function at this region's buffers. -/
theorem bodyAt1_eq (t : Fin cfg1.N) :
    bodyAt1 (F := F) t = cc0_kernel (grid1.coords t) (ms1_0 t) (hs1_0 t) (ms1_1 t) (hs1_1 t) (ms1_2 t) (hs1_2 t) acc1 (Memref.isWhole_whole _) := rfl

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev outV1 : View sig .tc .vmem S1x1 .f32 := (Memref.whole cc1_stg2_0 : Memref sig .tc .vmem S1x1 .f32).view

/-- The accumulation over this region's grid: its buffers and its input blocks, point by point. -/
def outsAt1 (c : Dev nD) : (n : ℕ) → n < cfg1.N → Vec F S1x1 .f32 × Vec F S1x1 .f32 :=
  outsAt c ms1_0 hs1_0 ms1_1 hs1_1 ms1_2 hs1_2 acc1 (Memref.isWhole_whole _) (iblk1 V c 0) (iblk1 V c 1) (outV1.read (Elt F) outV1.junk)

/-- The core's scoped buffers that are neither this region's staging buffers nor its accumulator, each at some contents. -/
abbrev others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem scoped1_eq (c : Dev nD) :
    (Pipeline.scopedRest spec1 c : sProp 𝕄)
      = iprop((∃ d, owns (c : Thread nD τ) acc1 fullShare d) ∗ others1 (F := F) c) := by
  unfold Pipeline.scopedRest
  rw [bigSep_erase (i := cc1_scratch0) (by decide)]
  simp only [acc1, owns_whole]; try rfl

/-- The invariant before position `n`: at first the scoped buffers at anything, afterwards the accumulator at what the point before left. -/
def PhiS1 (c : Dev nD) : (n : ℕ) → n ≤ cfg1.N → sProp 𝕄
  | 0, _ => Pipeline.scopedRest spec1 c
  | n + 1, hn => iprop(owns (c : Thread nD τ) acc1 fullShare ((outsAt1 V c n hn).2) ∗ others1 (F := F) c)

theorem PhiS1_zero (c : Dev nD) (n : ℕ) (h : n ≤ cfg1.N) (hz : n = 0) :
    PhiS1 V c n h = Pipeline.scopedRest spec1 c := by
  subst hz; rfl
theorem PhiS1_succ (c : Dev nD) (n : ℕ) (hn : n < cfg1.N) :
    PhiS1 V c (n + 1) hn = iprop(owns (c : Thread nD τ) acc1 fullShare ((outsAt1 V c n hn).2) ∗ others1 (F := F) c) := rfl
theorem PhiS1_pos (c : Dev nD) (n : ℕ) (h : n ≤ cfg1.N) (hz : n ≠ 0) :
    PhiS1 V c n h = iprop(owns (c : Thread nD τ) acc1 fullShare ((outsAt1 V c (n - 1) (by omega)).2) ∗ others1 (F := F) c) := by
  cases n with
  | zero => exact absurd rfl hz
  | succ n => rfl

/-- The region's proof data entered at contents `V`; `q` is the share of its array each input window holds. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := if w.val = 0 then fullShare.left else fullShare.right
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
/-- An input window's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Cert.KernelIdeal.Hand

end
-- ==== Proof.KI.Obl1.lean ====
import proofs.«105459_j82652350644520_1_alg».proof.Proof.KI.Dat1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 8 := lt_of_lt_of_eq t.isLt (show cfg1.N = 8 from N_1)
  by_cases hz : t.val = 0
  · have hl : ¬isLast (grid1.coords t) := notLast_of_ne t (by omega)
    rw [Dat.leavesExact_idle (dat1 V c) 2 t (idle1_2 t hl) (noFlush1_2 t hl)]
    rw [PhiS1_castSucc V c t, PhiS1_zero V c _ _ hz, scoped1_eq]
    unfold outsAt1
    rw [outsAt_first _ _ _ _ _ _ _ _ _ _ _ _ t hz]
    unfold accFirst
    iintro ⟨⟨HS, Hoth⟩, Ho, ⟨%d0, H0⟩, ⟨%d1, H1⟩, ⟨%d2, H2⟩⟩
    iapply ((runFirst c (grid1.coords t) _ _ _ _ _ _ _ _ (isFirst_of_eq t hz) hl (iblk1 V c 0 t) (iblk1 V c 1 t)).2 _ Set.univ _)
    isplitl [H0]; · iexact H0
    isplitl [H1]; · iexact H1
    isplitl [H2]; · iexact H2
    isplitl [HS]; · iexact HS
    iintro ⟨H0, H1, H2, HS⟩
    isplitl [HS Hoth]
    · isplitl [HS]; · iexact HS
      iexact Hoth
    isplitl [Ho]; · iexact Ho
    isplitl [H0]; · iexact H0
    isplitl [H1]; · iexact H1
    iexists _; iexact H2
  · by_cases h7 : t.val = 7
    · have hl : isLast (grid1.coords t) := isLast_of_eq t h7
      rw [show (dat1 V c).leavesExact 2 t = owns (c : Thread nD τ) (ms1_2 t) fullShare ((dat1 V c).after 2 t) from by
        unfold Dat.leavesExact; rw [live1_2 t hl], after1_2]
      rw [PhiS1_castSucc V c t, PhiS1_pos V c _ _ hz]
      unfold outsAt1
      rw [outsAt_last _ _ _ _ _ _ _ _ _ _ _ _ t hz h7]
      unfold outLast accLast
      iintro ⟨⟨HS, Hoth⟩, Ho, ⟨%d0, H0⟩, ⟨%d1, H1⟩, ⟨%d2, H2⟩⟩
      iapply ((runLast c (grid1.coords t) _ _ _ _ _ _ _ _ (notFirst_of_pos t hz) hl (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexact H2
    · have hl : ¬isLast (grid1.coords t) := notLast_of_ne t h7
      rw [Dat.leavesExact_idle (dat1 V c) 2 t (idle1_2 t hl) (noFlush1_2 t hl)]
      rw [PhiS1_castSucc V c t, PhiS1_pos V c _ _ hz]
      unfold outsAt1
      rw [outsAt_mid _ _ _ _ _ _ _ _ _ _ _ _ t hz h7]
      unfold accMid
      iintro ⟨⟨HS, Hoth⟩, Ho, ⟨%d0, H0⟩, ⟨%d1, H1⟩, ⟨%d2, H2⟩⟩
      iapply ((runMid c (grid1.coords t) _ _ _ _ _ _ _ _ (notFirst_of_pos t hz) hl (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexists _; iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Dat2.lean ====
import proofs.«105459_j82652350644520_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, ¬isLast (grid2.coords t) → cfg2.idle 2 (grid2.coords t) = true := by decide +kernel
theorem noFlush2_2 : ∀ t : Fin cfg2.N, ¬isLast (grid2.coords t) → (cfg2.win 2).flush t = false := by decide +kernel
theorem live2_2 : ∀ t : Fin cfg2.N, isLast (grid2.coords t) → cfg2.idle 2 (grid2.coords t) = false := by decide +kernel

abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev acc2 : Memref sig .tc .vmem S1x1 .f32 := Memref.whole cc2_scratch0

/-- The body at point `t` is the shared kernel function at this region's buffers. -/
theorem bodyAt2_eq (t : Fin cfg2.N) :
    bodyAt2 (F := F) t = cc0_kernel (grid2.coords t) (ms2_0 t) (hs2_0 t) (ms2_1 t) (hs2_1 t) (ms2_2 t) (hs2_2 t) acc2 (Memref.isWhole_whole _) := rfl

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev outV2 : View sig .tc .vmem S1x1 .f32 := (Memref.whole cc2_stg2_0 : Memref sig .tc .vmem S1x1 .f32).view

/-- The accumulation over this region's grid: its buffers and its input blocks, point by point. -/
def outsAt2 (c : Dev nD) : (n : ℕ) → n < cfg2.N → Vec F S1x1 .f32 × Vec F S1x1 .f32 :=
  outsAt c ms2_0 hs2_0 ms2_1 hs2_1 ms2_2 hs2_2 acc2 (Memref.isWhole_whole _) (iblk2 V c 0) (iblk2 V c 1) (outV2.read (Elt F) outV2.junk)

/-- The core's scoped buffers that are neither this region's staging buffers nor its accumulator, each at some contents. -/
abbrev others2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

theorem scoped2_eq (c : Dev nD) :
    (Pipeline.scopedRest spec2 c : sProp 𝕄)
      = iprop((∃ d, owns (c : Thread nD τ) acc2 fullShare d) ∗ others2 (F := F) c) := by
  unfold Pipeline.scopedRest
  rw [bigSep_erase (i := cc2_scratch0) (by decide)]
  simp only [acc2, owns_whole]; try rfl

/-- The invariant before position `n`: at first the scoped buffers at anything, afterwards the accumulator at what the point before left. -/
def PhiS2 (c : Dev nD) : (n : ℕ) → n ≤ cfg2.N → sProp 𝕄
  | 0, _ => Pipeline.scopedRest spec2 c
  | n + 1, hn => iprop(owns (c : Thread nD τ) acc2 fullShare ((outsAt2 V c n hn).2) ∗ others2 (F := F) c)

theorem PhiS2_zero (c : Dev nD) (n : ℕ) (h : n ≤ cfg2.N) (hz : n = 0) :
    PhiS2 V c n h = Pipeline.scopedRest spec2 c := by
  subst hz; rfl
theorem PhiS2_succ (c : Dev nD) (n : ℕ) (hn : n < cfg2.N) :
    PhiS2 V c (n + 1) hn = iprop(owns (c : Thread nD τ) acc2 fullShare ((outsAt2 V c n hn).2) ∗ others2 (F := F) c) := rfl
theorem PhiS2_pos (c : Dev nD) (n : ℕ) (h : n ≤ cfg2.N) (hz : n ≠ 0) :
    PhiS2 V c n h = iprop(owns (c : Thread nD τ) acc2 fullShare ((outsAt2 V c (n - 1) (by omega)).2) ∗ others2 (F := F) c) := by
  cases n with
  | zero => exact absurd rfl hz
  | succ n => rfl

/-- The region's proof data entered at contents `V`; `q` is the share of its array each input window holds. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem PhiS2_castSucc (c : Dev nD) (t : Fin cfg2.N) : (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
/-- An input window's buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

end Cert.KernelIdeal.Hand

end
-- ==== Proof.KI.Obl2.lean ====
import proofs.«105459_j82652350644520_1_alg».proof.Proof.KI.Dat2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, and what it returns. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [bodyAt2_eq]
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  have hN : t.val < 8 := lt_of_lt_of_eq t.isLt (show cfg2.N = 8 from N_2)
  by_cases hz : t.val = 0
  · have hl : ¬isLast (grid2.coords t) := notLast_of_ne t (by omega)
    rw [Dat.leavesExact_idle (dat2 V c) 2 t (idle2_2 t hl) (noFlush2_2 t hl)]
    rw [PhiS2_castSucc V c t, PhiS2_zero V c _ _ hz, scoped2_eq]
    unfold outsAt2
    rw [outsAt_first _ _ _ _ _ _ _ _ _ _ _ _ t hz]
    unfold accFirst
    iintro ⟨⟨HS, Hoth⟩, Ho, ⟨%d0, H0⟩, ⟨%d1, H1⟩, ⟨%d2, H2⟩⟩
    iapply ((runFirst c (grid2.coords t) _ _ _ _ _ _ _ _ (isFirst_of_eq t hz) hl (iblk2 V c 0 t) (iblk2 V c 1 t)).2 _ Set.univ _)
    isplitl [H0]; · iexact H0
    isplitl [H1]; · iexact H1
    isplitl [H2]; · iexact H2
    isplitl [HS]; · iexact HS
    iintro ⟨H0, H1, H2, HS⟩
    isplitl [HS Hoth]
    · isplitl [HS]; · iexact HS
      iexact Hoth
    isplitl [Ho]; · iexact Ho
    isplitl [H0]; · iexact H0
    isplitl [H1]; · iexact H1
    iexists _; iexact H2
  · by_cases h7 : t.val = 7
    · have hl : isLast (grid2.coords t) := isLast_of_eq t h7
      rw [show (dat2 V c).leavesExact 2 t = owns (c : Thread nD τ) (ms2_2 t) fullShare ((dat2 V c).after 2 t) from by
        unfold Dat.leavesExact; rw [live2_2 t hl], after2_2]
      rw [PhiS2_castSucc V c t, PhiS2_pos V c _ _ hz]
      unfold outsAt2
      rw [outsAt_last _ _ _ _ _ _ _ _ _ _ _ _ t hz h7]
      unfold outLast accLast
      iintro ⟨⟨HS, Hoth⟩, Ho, ⟨%d0, H0⟩, ⟨%d1, H1⟩, ⟨%d2, H2⟩⟩
      iapply ((runLast c (grid2.coords t) _ _ _ _ _ _ _ _ (notFirst_of_pos t hz) hl (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexact H2
    · have hl : ¬isLast (grid2.coords t) := notLast_of_ne t h7
      rw [Dat.leavesExact_idle (dat2 V c) 2 t (idle2_2 t hl) (noFlush2_2 t hl)]
      rw [PhiS2_castSucc V c t, PhiS2_pos V c _ _ hz]
      unfold outsAt2
      rw [outsAt_mid _ _ _ _ _ _ _ _ _ _ _ _ t hz h7]
      unfold accMid
      iintro ⟨⟨HS, Hoth⟩, Ho, ⟨%d0, H0⟩, ⟨%d1, H1⟩, ⟨%d2, H2⟩⟩
      iapply ((runMid c (grid2.coords t) _ _ _ _ _ _ _ _ (notFirst_of_pos t hz) hl (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexists _; iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Vals.lean ====
import proofs.«105459_j82652350644520_1_alg».proof.Proof.KI.Obl0
import proofs.«105459_j82652350644520_1_alg».proof.Proof.KI.Obl1
import proofs.«105459_j82652350644520_1_alg».proof.Proof.KI.Obl2
import proofs.«105459_j82652350644520_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffer contents between the items of the entry function, as a fold from the launch memory: a region rewrites its result array, a host stretch what its operations write. -/
abbrev Went0 (c : Dev nD) : Valuation τ sig (Elt F) := fun b => m (c, b)
abbrev Ventry0 : (c : Dev nD) → (b : Ref sig .tc) → Buf (Elt F) ((c : Thread nD τ).loc b) := fun c b => Went0 m c b

def Wexit0 (c : Dev nD) : Valuation τ sig (Elt F) := Function.update (Went0 m c) main_v0 ((dat0 (Ventry0 m) c).arrAt 2 cfg0.N)
abbrev Vexit0 : (c : Dev nD) → (b : Ref sig .tc) → Buf (Elt F) ((c : Thread nD τ).loc b) := fun c b => Wexit0 m c b

abbrev Went1 (c : Dev nD) : Valuation τ sig (Elt F) := StableHlo.after hostOps1 (Wexit0 m c)
abbrev Ventry1 : (c : Dev nD) → (b : Ref sig .tc) → Buf (Elt F) ((c : Thread nD τ).loc b) := fun c b => Went1 m c b
def Wexit1 (c : Dev nD) : Valuation τ sig (Elt F) := Function.update (Went1 m c) main_v3 ((dat1 (Ventry1 m) c).arrAt 2 cfg1.N)
abbrev Vexit1 : (c : Dev nD) → (b : Ref sig .tc) → Buf (Elt F) ((c : Thread nD τ).loc b) := fun c b => Wexit1 m c b

abbrev Went2 (c : Dev nD) : Valuation τ sig (Elt F) := StableHlo.after hostOps2 (Wexit1 m c)
abbrev Ventry2 : (c : Dev nD) → (b : Ref sig .tc) → Buf (Elt F) ((c : Thread nD τ).loc b) := fun c b => Went2 m c b
def Wexit2 (c : Dev nD) : Valuation τ sig (Elt F) := Function.update (Went2 m c) main_v6 ((dat2 (Ventry2 m) c).arrAt 2 cfg2.N)
abbrev Vexit2 : (c : Dev nD) → (b : Ref sig .tc) → Buf (Elt F) ((c : Thread nD τ).loc b) := fun c b => Wexit2 m c b

abbrev Wend (c : Dev nD) : Valuation τ sig (Elt F) := StableHlo.after hostOps3 (Wexit2 m c)

theorem hexitV0 (c : Dev nD) : Vexit0 m c main_v0 = (dat0 (Ventry0 m) c).arrAt 2 cfg0.N := by
  dsimp only [Vexit0, Wexit0]; exact Function.update_self ..
theorem hrestV0 (c : Dev nD) (b : Ref sig .tc) (hb : b ≠ main_v0) : Vexit0 m c b = Ventry0 m c b := by
  dsimp only [Vexit0, Wexit0, Ventry0]; exact Function.update_of_ne (StableHlo.devRef_ne_of_ne hb) ..
theorem hexitV1 (c : Dev nD) : Vexit1 m c main_v3 = (dat1 (Ventry1 m) c).arrAt 2 cfg1.N := by
  dsimp only [Vexit1, Wexit1]; exact Function.update_self ..
theorem hrestV1 (c : Dev nD) (b : Ref sig .tc) (hb : b ≠ main_v3) : Vexit1 m c b = Ventry1 m c b := by
  dsimp only [Vexit1, Wexit1, Ventry1]; exact Function.update_of_ne (StableHlo.devRef_ne_of_ne hb) ..
theorem hexitV2 (c : Dev nD) : Vexit2 m c main_v6 = (dat2 (Ventry2 m) c).arrAt 2 cfg2.N := by
  dsimp only [Vexit2, Wexit2]; exact Function.update_self ..
theorem hrestV2 (c : Dev nD) (b : Ref sig .tc) (hb : b ≠ main_v6) : Vexit2 m c b = Ventry2 m c b := by
  dsimp only [Vexit2, Wexit2, Ventry2]; exact Function.update_of_ne (StableHlo.devRef_ne_of_ne hb) ..

theorem winFacts₀2 : Pipeline.WinFacts₀ spec2 := winFacts2.to₀

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Ventry0 m) c
  | ⟨1, _⟩ => fun c => dat1 (Ventry1 m) c
  | ⟨2, _⟩ => fun c => dat2 (Ventry2 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

end Cert.KernelIdeal.Hand

end
-- ==== Proof.KI.Arr0.lean ====
import proofs.«105459_j82652350644520_1_alg».proof.Proof.KI.Dat0
import Idealize.ShloMosaic.Lib.Pipeline.Launch
import Idealize.ShloMosaic.Lib.Pipeline.Cells
import Idealize.ShloMosaic.Rules.PointsTo
import Idealize.SL.RA.TreeShare
import Idealize.SL.BI.BigOp

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two input windows read one array: the buffers behind the three windows' arrays are the shared input and the result. -/
theorem arrImage0 : Finset.univ.image (Pipeline.arrRef spec0) = {main_arg0, main_v0} := by decide

theorem unscopedSplit0 (c : Dev nD) (V : (b : Ref sig .tc) → Buf (Elt F) ((c : Thread nD τ).loc b)) :
    (unscopedBufs c V : sProp 𝕄)
      = iprop(Pipeline.arrBufs spec0 c V
          ∗ Pipeline.unscopedRest spec0 c V) :=
  Pipeline.unscopedBufs_split₀ (P := Unit) (fun _ => cfg0) () winFacts₀0.arr_unscoped c V

theorem arrBufs0_eq (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v0) ↦{fullShare} V main_v0)) := by
  unfold Pipeline.arrBufs
  rw [arrImage0, bigSep_insert (by decide), bigSep_singleton]
  rfl

variable (V : (c : Dev nD) → (b : Ref sig .tc) → Buf (Elt F) ((c : Thread nD τ).loc b))

/-- The windows' arrays one by one: the input at half shares for its two windows, the result at the full share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0]
  refine congrArg₂ _ ?_ (congrArg₂ _ ?_ ?_)
  · rw [(arr_whole0 0).set_eq_univ]; rfl
  · rw [(arr_whole0 1).set_eq_univ]; rfl
  · rw [(arr_whole0 2).set_eq_univ]; rfl

theorem unscopedRest0_congr (c : Dev nD) (V₁ V₂ : (b : Ref sig .tc) → Buf (Elt F) ((c : Thread nD τ).loc b))
    (h : ∀ b, b ≠ main_arg0 → b ≠ main_v0 → V₂ b = V₁ b) :
    (Pipeline.unscopedRest spec0 c V₁ : sProp 𝕄)
      = Pipeline.unscopedRest spec0 c V₂ := by
  unfold Pipeline.unscopedRest
  refine bigSep_congr fun b hb => ?_
  have hn := (Finset.mem_sdiff.mp hb).2
  rw [arrImage0] at hn
  rw [h b (fun e => hn (by rw [e]; decide)) (fun e => hn (by rw [e]; decide))]

/-- At entry the unscoped buffers are the region's arrays and the rest; at exit they join again with the result array replaced. -/
theorem entryArrays0 (c : Dev nD) :
    (unscopedBufs c (V c) : sProp 𝕄)
      ⊢ iprop((dat0 V c).arrays ((dat0 V c).arrAt · 0) ∗ Pipeline.unscopedRest spec0 c (V c)) := by
  rw [unscopedSplit0, arrBufs0_eq, arrays0_eq]
  refine sep_mono ?_ .rfl
  refine (sep_mono (pointsTo_share (PosShare.mem_left_op_right fullShare)).1 .rfl).trans ?_
  exact sep_assoc

theorem exitArrays0 (c : Dev nD)
    (V' : (b : Ref sig .tc) → Buf (Elt F) ((c : Thread nD τ).loc b)) (hout : V' main_v0 = (dat0 V c).arrAt 2 cfg0.N) (hrest : ∀ b, b ≠ main_v0 → V' b = V c b) :
    iprop((dat0 V c).arrays ((dat0 V c).arrAt · cfg0.N) ∗ Pipeline.unscopedRest spec0 c (V c)) ⊢ (unscopedBufs c V' : sProp 𝕄) := by
  rw [unscopedSplit0, arrBufs0_eq, arrays0_eq, unscopedRest0_congr c (V c) V' (fun b _ h => hrest b h)]
  refine sep_mono ?_ .rfl
  have h0 : (dat0 V c).arrAt 0 cfg0.N = V' main_arg0 := ((dat0 V c).arrAt_in 0 rfl _).trans ((A_eq0 V c 0).trans (hrest main_arg0 (by decide)).symm)
  have h1 : (dat0 V c).arrAt 1 cfg0.N = V' main_arg0 := ((dat0 V c).arrAt_in 1 rfl _).trans ((A_eq0 V c 1).trans (hrest main_arg0 (by decide)).symm)
  rw [h0, h1, ← hout]
  refine sep_assoc'.trans ?_
  exact sep_mono (pointsTo_share (PosShare.mem_left_op_right fullShare)).2 .rfl

end Cert.KernelIdeal.Hand

end
-- ==== Proof.KI.Reg0.lean ====
import proofs.«105459_j82652350644520_1_alg».proof.Proof.KI.Vals
import proofs.«105459_j82652350644520_1_alg».proof.Proof.KI.Arr0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After any point but the first the invariant gives the scoped buffers back, the accumulator's contents forgotten. -/
theorem Phi0_out (V : (c : Dev nD) → (b : Ref sig .tc) → Buf (Elt F) ((c : Thread nD τ).loc b)) (c : Dev nD) (t : Fin (cfg0.N + 1)) (ht : t.val ≠ 0) :
    (dat0 V c).Φ t ⊢ (Pipeline.scopedRest spec0 c : sProp 𝕄) := by
  rw [show (dat0 V c).Φ t = PhiS0 V c t.val (Nat.le_of_lt_succ t.isLt) from rfl, PhiS0_pos V c _ _ ht, scoped0_eq]
  iintro ⟨HS, Hoth⟩
  isplitl [HS]
  · iexists _; iexact HS
  iexact Hoth

set_option backward.isDefEq.respectTransparency.types false in
/-- The region as a segment of the entry function: entered with every unscoped buffer at the contents before it, left with its result array rewritten. -/
def reg0 : Pipeline.RegionSeg (pcfgs (F := F)) adm (pdats m) () defs₀ 𝒱₀ L lv (0 : Fin 3) where
  win := winFacts₀0
  block_pos := block_pos0
  stage_whole := stage_whole0
  K := PEmpty
  osem k := k.elim
  ho := Pipeline.OwnSemFacts.none _
  hbody c := (body_obligation0 (Ventry0 m) c).loose
  hwaits := Pipeline.hwaits_of_owed_zero _ _ _ _ L lv (0 : Fin 3) fun _ _ => rfl
  pre c := iprop(StableHlo.held (c : Thread nD τ) (Pipeline.ucRefs τ sig) (Went0 m c) ∗ R c)
  post c := iprop(StableHlo.held (c : Thread nD τ) (Pipeline.ucRefs τ sig) (Wexit0 m c) ∗ R c)
  X _ := BI.emp
  Y _ := BI.emp
  Z c := iprop(Pipeline.unscopedRest spec0 c (Ventry0 m c) ∗ ∃ r, prngReg c r)
  hentry c := by
    rw [Pipeline.ownSems0_none]
    have hsplit : (unscopedBufs c (Ventry0 m c) : sProp 𝕄)
        ⊢ iprop((pdats m (0 : Fin 3) c).arrays ((pdats m (0 : Fin 3) c).arrAt · 0)
          ∗ Pipeline.unscopedRest spec0 c (Ventry0 m c)) :=
      entryArrays0 (Ventry0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m (0 : Fin 3) c).Φ 0 = Pipeline.scopedRest spec0 c from rfl]
    iintro ⟨-, -, Hr⟩; iexact Hr
  hout c := by
    rw [Pipeline.ownSems0_none]
    have hΦ : (pdats m (0 : Fin 3) c).Φ (Fin.last (Pipeline.pin (pcfgs (F := F)) adm (0 : Fin 3)).N)
        ⊢ (Pipeline.scopedRest spec0 c : sProp 𝕄) :=
      Phi0_out (Ventry0 m) c (Fin.last cfg0.N) (by rw [Fin.val_last]; have : cfg0.N = 8 := N_0; omega)
    iintro H
    isplitr; · iempintro
    isplitr; · iempintro
    iapply hΦ
    iexact H
  hexit c := by
    have hjoin : iprop((pdats m (0 : Fin 3) c).arrays ((pdats m (0 : Fin 3) c).arrAt · (Pipeline.pin (pcfgs (F := F)) adm (0 : Fin 3)).N)
          ∗ Pipeline.unscopedRest spec0 c (Ventry0 m c))
        ⊢ (unscopedBufs c (Vexit0 m c) : sProp 𝕄) :=
      exitArrays0 (Ventry0 m) c (Vexit0 m c) (hexitV0 m c) (hrestV0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.KI.Arr1.lean ====
import proofs.«105459_j82652350644520_1_alg».proof.Proof.KI.Dat1
import Idealize.ShloMosaic.Lib.Pipeline.Launch
import Idealize.ShloMosaic.Lib.Pipeline.Cells
import Idealize.ShloMosaic.Rules.PointsTo
import Idealize.SL.RA.TreeShare
import Idealize.SL.BI.BigOp

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two input windows read one array: the buffers behind the three windows' arrays are the shared input and the result. -/
theorem arrImage1 : Finset.univ.image (Pipeline.arrRef spec1) = {main_arg1, main_v3} := by decide

theorem unscopedSplit1 (c : Dev nD) (V : (b : Ref sig .tc) → Buf (Elt F) ((c : Thread nD τ).loc b)) :
    (unscopedBufs c V : sProp 𝕄)
      = iprop(Pipeline.arrBufs spec1 c V
          ∗ Pipeline.unscopedRest spec1 c V) :=
  Pipeline.unscopedBufs_split₀ (P := Unit) (fun _ => cfg1) () winFacts₀1.arr_unscoped c V

theorem arrBufs1_eq (c : Dev nD) (V : (b : Ref sig .tc) → Buf (Elt F) ((c : Thread nD τ).loc b)) :
    (Pipeline.arrBufs spec1 c V : sProp 𝕄)
      = iprop((((c : Thread nD τ).loc main_arg1) ↦{fullShare} V main_arg1) ∗ (((c : Thread nD τ).loc main_v3) ↦{fullShare} V main_v3)) := by
  unfold Pipeline.arrBufs
  rw [arrImage1, bigSep_insert (by decide), bigSep_singleton]
  rfl

variable (V : (c : Dev nD) → (b : Ref sig .tc) → Buf (Elt F) ((c : Thread nD τ).loc b))

/-- The windows' arrays one by one: the input at half shares for its two windows, the result at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare.left} G 0) ∗ (((c : Thread nD τ).loc main_arg1) ↦{fullShare.right} G 1)
          ∗ (((c : Thread nD τ).loc main_v3) ↦{fullShare} G 2)) := by
  unfold Dat.arrays
  rw [bigSep_W1]
  refine congrArg₂ _ ?_ (congrArg₂ _ ?_ ?_)
  · rw [(arr_whole1 0).set_eq_univ]; rfl
  · rw [(arr_whole1 1).set_eq_univ]; rfl
  · rw [(arr_whole1 2).set_eq_univ]; rfl

theorem unscopedRest1_congr (c : Dev nD) (V₁ V₂ : (b : Ref sig .tc) → Buf (Elt F) ((c : Thread nD τ).loc b))
    (h : ∀ b, b ≠ main_arg1 → b ≠ main_v3 → V₂ b = V₁ b) :
    (Pipeline.unscopedRest spec1 c V₁ : sProp 𝕄)
      = Pipeline.unscopedRest spec1 c V₂ := by
  unfold Pipeline.unscopedRest
  refine bigSep_congr fun b hb => ?_
  have hn := (Finset.mem_sdiff.mp hb).2
  rw [arrImage1] at hn
  rw [h b (fun e => hn (by rw [e]; decide)) (fun e => hn (by rw [e]; decide))]

/-- At entry the unscoped buffers are the region's arrays and the rest; at exit they join again with the result array replaced. -/
theorem entryArrays1 (c : Dev nD) :
    (unscopedBufs c (V c) : sProp 𝕄)
      ⊢ iprop((dat1 V c).arrays ((dat1 V c).arrAt · 0) ∗ Pipeline.unscopedRest spec1 c (V c)) := by
  rw [unscopedSplit1, arrBufs1_eq, arrays1_eq]
  refine sep_mono ?_ .rfl
  refine (sep_mono (pointsTo_share (PosShare.mem_left_op_right fullShare)).1 .rfl).trans ?_
  exact sep_assoc

theorem exitArrays1 (c : Dev nD)
    (V' : (b : Ref sig .tc) → Buf (Elt F) ((c : Thread nD τ).loc b)) (hout : V' main_v3 = (dat1 V c).arrAt 2 cfg1.N) (hrest : ∀ b, b ≠ main_v3 → V' b = V c b) :
    iprop((dat1 V c).arrays ((dat1 V c).arrAt · cfg1.N) ∗ Pipeline.unscopedRest spec1 c (V c)) ⊢ (unscopedBufs c V' : sProp 𝕄) := by
  rw [unscopedSplit1, arrBufs1_eq, arrays1_eq, unscopedRest1_congr c (V c) V' (fun b _ h => hrest b h)]
  refine sep_mono ?_ .rfl
  have h0 : (dat1 V c).arrAt 0 cfg1.N = V' main_arg1 := ((dat1 V c).arrAt_in 0 rfl _).trans ((A_eq1 V c 0).trans (hrest main_arg1 (by decide)).symm)
  have h1 : (dat1 V c).arrAt 1 cfg1.N = V' main_arg1 := ((dat1 V c).arrAt_in 1 rfl _).trans ((A_eq1 V c 1).trans (hrest main_arg1 (by decide)).symm)
  rw [h0, h1, ← hout]
  refine sep_assoc'.trans ?_
  exact sep_mono (pointsTo_share (PosShare.mem_left_op_right fullShare)).2 .rfl

end Cert.KernelIdeal.Hand

end
-- ==== Proof.KI.Reg1.lean ====
import proofs.«105459_j82652350644520_1_alg».proof.Proof.KI.Vals
import proofs.«105459_j82652350644520_1_alg».proof.Proof.KI.Arr1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After any point but the first the invariant gives the scoped buffers back, the accumulator's contents forgotten. -/
theorem Phi1_out (V : (c : Dev nD) → (b : Ref sig .tc) → Buf (Elt F) ((c : Thread nD τ).loc b)) (c : Dev nD) (t : Fin (cfg1.N + 1)) (ht : t.val ≠ 0) :
    (dat1 V c).Φ t ⊢ (Pipeline.scopedRest spec1 c : sProp 𝕄) := by
  rw [show (dat1 V c).Φ t = PhiS1 V c t.val (Nat.le_of_lt_succ t.isLt) from rfl, PhiS1_pos V c _ _ ht, scoped1_eq]
  iintro ⟨HS, Hoth⟩
  isplitl [HS]
  · iexists _; iexact HS
  iexact Hoth

set_option backward.isDefEq.respectTransparency.types false in
/-- The region as a segment of the entry function: entered with every unscoped buffer at the contents before it, left with its result array rewritten. -/
def reg1 : Pipeline.RegionSeg (pcfgs (F := F)) adm (pdats m) () defs₀ 𝒱₀ L lv (1 : Fin 3) where
  win := winFacts₀1
  block_pos := block_pos1
  stage_whole := stage_whole1
  K := PEmpty
  osem k := k.elim
  ho := Pipeline.OwnSemFacts.none _
  hbody c := (body_obligation1 (Ventry1 m) c).loose
  hwaits := Pipeline.hwaits_of_owed_zero _ _ _ _ L lv (1 : Fin 3) fun _ _ => rfl
  pre c := iprop(StableHlo.held (c : Thread nD τ) (Pipeline.ucRefs τ sig) (Went1 m c) ∗ R c)
  post c := iprop(StableHlo.held (c : Thread nD τ) (Pipeline.ucRefs τ sig) (Wexit1 m c) ∗ R c)
  X _ := BI.emp
  Y _ := BI.emp
  Z c := iprop(Pipeline.unscopedRest spec1 c (Ventry1 m c) ∗ ∃ r, prngReg c r)
  hentry c := by
    rw [Pipeline.ownSems0_none]
    have hsplit : (unscopedBufs c (Ventry1 m c) : sProp 𝕄)
        ⊢ iprop((pdats m (1 : Fin 3) c).arrays ((pdats m (1 : Fin 3) c).arrAt · 0)
          ∗ Pipeline.unscopedRest spec1 c (Ventry1 m c)) :=
      entryArrays1 (Ventry1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m (1 : Fin 3) c).Φ 0 = Pipeline.scopedRest spec1 c from rfl]
    iintro ⟨-, -, Hr⟩; iexact Hr
  hout c := by
    rw [Pipeline.ownSems0_none]
    have hΦ : (pdats m (1 : Fin 3) c).Φ (Fin.last (Pipeline.pin (pcfgs (F := F)) adm (1 : Fin 3)).N)
        ⊢ (Pipeline.scopedRest spec1 c : sProp 𝕄) :=
      Phi1_out (Ventry1 m) c (Fin.last cfg1.N) (by rw [Fin.val_last]; have : cfg1.N = 8 := N_1; omega)
    iintro H
    isplitr; · iempintro
    isplitr; · iempintro
    iapply hΦ
    iexact H
  hexit c := by
    have hjoin : iprop((pdats m (1 : Fin 3) c).arrays ((pdats m (1 : Fin 3) c).arrAt · (Pipeline.pin (pcfgs (F := F)) adm (1 : Fin 3)).N)
          ∗ Pipeline.unscopedRest spec1 c (Ventry1 m c))
        ⊢ (unscopedBufs c (Vexit1 m c) : sProp 𝕄) :=
      exitArrays1 (Ventry1 m) c (Vexit1 m c) (hexitV1 m c) (hrestV1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.KI.Arr2.lean ====
import proofs.«105459_j82652350644520_1_alg».proof.Proof.KI.Dat2
import Idealize.ShloMosaic.Lib.Pipeline.Launch
import Idealize.ShloMosaic.Lib.Pipeline.Cells
import Idealize.ShloMosaic.Rules.PointsTo
import Idealize.SL.RA.TreeShare
import Idealize.SL.BI.BigOp

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three windows read three distinct arrays. -/
theorem arrImage2 : Finset.univ.image (Pipeline.arrRef spec2) = {main_arg0, main_arg1, main_v6} := by decide

theorem unscopedSplit2 (c : Dev nD) (V : (b : Ref sig .tc) → Buf (Elt F) ((c : Thread nD τ).loc b)) :
    (unscopedBufs c V : sProp 𝕄)
      = iprop(Pipeline.arrBufs spec2 c V
          ∗ Pipeline.unscopedRest spec2 c V) :=
  Pipeline.unscopedBufs_split₀ (P := Unit) (fun _ => cfg2) () winFacts2.arr_unscoped c V

theorem arrBufs2_eq (c : Dev nD) (V : (b : Ref sig .tc) → Buf (Elt F) ((c : Thread nD τ).loc b)) :
    (Pipeline.arrBufs spec2 c V : sProp 𝕄)
      = iprop((((c : Thread nD τ).loc main_arg0) ↦{fullShare} V main_arg0) ∗ (((c : Thread nD τ).loc main_arg1) ↦{fullShare} V main_arg1)
          ∗ (((c : Thread nD τ).loc main_v6) ↦{fullShare} V main_v6)) := by
  unfold Pipeline.arrBufs
  rw [arrImage2, bigSep_insert (by decide), bigSep_insert (by decide), bigSep_singleton]
  rfl

variable (V : (c : Dev nD) → (b : Ref sig .tc) → Buf (Elt F) ((c : Thread nD τ).loc b))

theorem arrays2_eq (c : Dev nD) (G : (w : Fin cfg2.W) → Buf (Elt F) ((cfg2.win w).arr.view.loc (c : Thread nD τ))) :
    ((dat2 V c).arrays G : sProp 𝕄)
      = iprop((((c : Thread nD τ).loc main_arg0) ↦{fullShare} G 0) ∗ (((c : Thread nD τ).loc main_arg1) ↦{fullShare} G 1)
          ∗ (((c : Thread nD τ).loc main_v6) ↦{fullShare} G 2)) := by
  unfold Dat.arrays
  rw [bigSep_W2]
  refine congrArg₂ _ ?_ (congrArg₂ _ ?_ ?_)
  · rw [(arr_whole2 0).set_eq_univ]; rfl
  · rw [(arr_whole2 1).set_eq_univ]; rfl
  · rw [(arr_whole2 2).set_eq_univ]; rfl

theorem unscopedRest2_congr (c : Dev nD) (V₁ V₂ : (b : Ref sig .tc) → Buf (Elt F) ((c : Thread nD τ).loc b))
    (h : ∀ b, b ≠ main_v6 → V₂ b = V₁ b) :
    (Pipeline.unscopedRest spec2 c V₁ : sProp 𝕄)
      = Pipeline.unscopedRest spec2 c V₂ := by
  unfold Pipeline.unscopedRest
  refine bigSep_congr fun b hb => ?_
  have hn := (Finset.mem_sdiff.mp hb).2
  rw [arrImage2] at hn
  rw [h b (fun e => hn (by rw [e]; decide))]

theorem entryArrays2 (c : Dev nD) :
    (unscopedBufs c (V c) : sProp 𝕄)
      ⊢ iprop((dat2 V c).arrays ((dat2 V c).arrAt · 0) ∗ Pipeline.unscopedRest spec2 c (V c)) := by
  rw [unscopedSplit2, arrBufs2_eq, arrays2_eq]
  exact sep_mono .rfl .rfl

theorem exitArrays2 (c : Dev nD)
    (V' : (b : Ref sig .tc) → Buf (Elt F) ((c : Thread nD τ).loc b)) (hout : V' main_v6 = (dat2 V c).arrAt 2 cfg2.N) (hrest : ∀ b, b ≠ main_v6 → V' b = V c b) :
    iprop((dat2 V c).arrays ((dat2 V c).arrAt · cfg2.N) ∗ Pipeline.unscopedRest spec2 c (V c)) ⊢ (unscopedBufs c V' : sProp 𝕄) := by
  rw [unscopedSplit2, arrBufs2_eq, arrays2_eq, unscopedRest2_congr c (V c) V' hrest]
  have h0 : (dat2 V c).arrAt 0 cfg2.N = V' main_arg0 := ((dat2 V c).arrAt_in 0 rfl _).trans ((A_eq2 V c 0).trans (hrest main_arg0 (by decide)).symm)
  have h1 : (dat2 V c).arrAt 1 cfg2.N = V' main_arg1 := ((dat2 V c).arrAt_in 1 rfl _).trans ((A_eq2 V c 1).trans (hrest main_arg1 (by decide)).symm)
  rw [h0, h1, ← hout]

end Cert.KernelIdeal.Hand

end
-- ==== Proof.KI.Reg2.lean ====
import proofs.«105459_j82652350644520_1_alg».proof.Proof.KI.Vals
import proofs.«105459_j82652350644520_1_alg».proof.Proof.KI.Arr2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After any point but the first the invariant gives the scoped buffers back, the accumulator's contents forgotten. -/
theorem Phi2_out (V : (c : Dev nD) → (b : Ref sig .tc) → Buf (Elt F) ((c : Thread nD τ).loc b)) (c : Dev nD) (t : Fin (cfg2.N + 1)) (ht : t.val ≠ 0) :
    (dat2 V c).Φ t ⊢ (Pipeline.scopedRest spec2 c : sProp 𝕄) := by
  rw [show (dat2 V c).Φ t = PhiS2 V c t.val (Nat.le_of_lt_succ t.isLt) from rfl, PhiS2_pos V c _ _ ht, scoped2_eq]
  iintro ⟨HS, Hoth⟩
  isplitl [HS]
  · iexists _; iexact HS
  iexact Hoth

set_option backward.isDefEq.respectTransparency.types false in
/-- The region as a segment of the entry function: entered with every unscoped buffer at the contents before it, left with its result array rewritten. -/
def reg2 : Pipeline.RegionSeg (pcfgs (F := F)) adm (pdats m) () defs₀ 𝒱₀ L lv (2 : Fin 3) where
  win := winFacts₀2
  block_pos := block_pos2
  stage_whole := stage_whole2
  K := PEmpty
  osem k := k.elim
  ho := Pipeline.OwnSemFacts.none _
  hbody c := (body_obligation2 (Ventry2 m) c).loose
  hwaits := Pipeline.hwaits_of_owed_zero _ _ _ _ L lv (2 : Fin 3) fun _ _ => rfl
  pre c := iprop(StableHlo.held (c : Thread nD τ) (Pipeline.ucRefs τ sig) (Went2 m c) ∗ R c)
  post c := iprop(StableHlo.held (c : Thread nD τ) (Pipeline.ucRefs τ sig) (Wexit2 m c) ∗ R c)
  X _ := BI.emp
  Y _ := BI.emp
  Z c := iprop(Pipeline.unscopedRest spec2 c (Ventry2 m c) ∗ ∃ r, prngReg c r)
  hentry c := by
    rw [Pipeline.ownSems0_none]
    have hsplit : (unscopedBufs c (Ventry2 m c) : sProp 𝕄)
        ⊢ iprop((pdats m (2 : Fin 3) c).arrays ((pdats m (2 : Fin 3) c).arrAt · 0)
          ∗ Pipeline.unscopedRest spec2 c (Ventry2 m c)) :=
      entryArrays2 (Ventry2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m (2 : Fin 3) c).Φ 0 = Pipeline.scopedRest spec2 c from rfl]
    iintro ⟨-, -, Hr⟩; iexact Hr
  hout c := by
    rw [Pipeline.ownSems0_none]
    have hΦ : (pdats m (2 : Fin 3) c).Φ (Fin.last (Pipeline.pin (pcfgs (F := F)) adm (2 : Fin 3)).N)
        ⊢ (Pipeline.scopedRest spec2 c : sProp 𝕄) :=
      Phi2_out (Ventry2 m) c (Fin.last cfg2.N) (by rw [Fin.val_last]; have : cfg2.N = 8 := N_2; omega)
    iintro H
    isplitr; · iempintro
    isplitr; · iempintro
    iapply hΦ
    iexact H
  hexit c := by
    have hjoin : iprop((pdats m (2 : Fin 3) c).arrays ((pdats m (2 : Fin 3) c).arrAt · (Pipeline.pin (pcfgs (F := F)) adm (2 : Fin 3)).N)
          ∗ Pipeline.unscopedRest spec2 c (Ventry2 m c))
        ⊢ (unscopedBufs c (Vexit2 m c) : sProp 𝕄) :=
      exitArrays2 (Ventry2 m) c (Vexit2 m c) (hexitV2 m c) (hrestV2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.KI.Main.lean ====
import proofs.«105459_j82652350644520_1_alg».proof.Proof.KI.Reg0
import proofs.«105459_j82652350644520_1_alg».proof.Proof.KI.Reg1
import proofs.«105459_j82652350644520_1_alg».proof.Proof.KI.Reg2
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The entry function's six items in order: a region per pallas_call, each followed by its stretch of host operations. -/
abbrev segs : List (Pipeline.Seg (pcfgs (F := F)) adm (pdats m) () defs₀ 𝒱₀ L lv) :=
  [ .region (reg0 m),
    .host (hseg hostOps1 hostOps1_sub hostOps1_fresh (Wexit0 m)),
    .region (reg1 m),
    .host (hseg hostOps2 hostOps2_sub hostOps2_fresh (Wexit1 m)),
    .region (reg2 m),
    .host (hseg hostOps3 hostOps3_sub hostOps3_fresh (Wexit2 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Went0 m c) ∗ R c))
    (Tₙ := fun c => iprop(StableHlo.held (c : Thread nD τ) (Pipeline.ucRefs τ sig) (Wend m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (Wend m c) ∗ R c)
        ⊢ (iprop(iprop(StableHlo.held (c : Thread nD τ) (Pipeline.ucRefs τ sig) (Wend m c) ∗ ∃ r, prngReg c r)
            ∗ ∃ W, owes (c : Thread nD τ) (0 : CellTallies nD τ sig Unit) W) : sProp 𝕄)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Went0 m c)
        from Pipeline.unscopedBufs_held c (Went0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h => h)

end Cert.KernelIdeal.Hand

end
-- ==== Proof.KI.Ends.lean ====
import proofs.«105459_j82652350644520_1_alg».proof.Proof.KI.Vals
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]
variable (m : (ℓ : Loc nD τ sig) → Buf (Elt F) ℓ)

theorem Went1_of (c : Dev nD) (r : Ref sig .tc) (h : r ∉ hostOps1_W) : Went1 m c r = Wexit0 m c r :=
  StableHlo.after_of_writes_sub hostOps1 _ hostOps1_writes h
theorem Went2_of (c : Dev nD) (r : Ref sig .tc) (h : r ∉ hostOps2_W) : Went2 m c r = Wexit1 m c r :=
  StableHlo.after_of_writes_sub hostOps2 _ hostOps2_writes h
theorem Wend_of (c : Dev nD) (r : Ref sig .tc) (h : r ∉ hostOps3_W) : Wend m c r = Wexit2 m c r :=
  StableHlo.after_of_writes_sub hostOps3 _ hostOps3_writes h

/-- A buffer that is no region's result array and that no host operation writes holds its launch contents at every boundary. -/
theorem Went1_launch (c : Dev nD) (r : Ref sig .tc) (h0 : r ≠ main_v0) (h1 : r ∉ hostOps1_W) :
    Went1 m c r = m ((c : Thread nD τ).loc r) :=
  (Went1_of m c r h1).trans ((hrestV0 m c r h0).trans rfl)

theorem Went2_launch (c : Dev nD) (r : Ref sig .tc) (h0 : r ≠ main_v0) (h1 : r ∉ hostOps1_W) (h3 : r ≠ main_v3)
    (h2 : r ∉ hostOps2_W) : Went2 m c r = m ((c : Thread nD τ).loc r) :=
  (Went2_of m c r h2).trans ((hrestV1 m c r h3).trans (Went1_launch m c r h0 h1))

theorem Wend_launch (c : Dev nD) (r : Ref sig .tc) (h0 : r ≠ main_v0) (h1 : r ∉ hostOps1_W) (h3 : r ≠ main_v3)
    (h2 : r ∉ hostOps2_W) (h6 : r ≠ main_v6) (h3' : r ∉ hostOps3_W) : Wend m c r = m ((c : Thread nD τ).loc r) :=
  (Wend_of m c r h3').trans ((hrestV2 m c r h6).trans (Went2_launch m c r h0 h1 h3 h2))

theorem Wend_arg0 (c : Dev nD) : Wend m c main_arg0 = m ((c : Thread nD τ).loc main_arg0) :=
  Wend_launch m c main_arg0 (by decide) (by decide) (by decide) (by decide) (by decide) (by decide)

theorem Wend_arg1 (c : Dev nD) : Wend m c main_arg1 = m ((c : Thread nD τ).loc main_arg1) :=
  Wend_launch m c main_arg1 (by decide) (by decide) (by decide) (by decide) (by decide) (by decide)

end Cert.KernelIdeal.Hand

end
-- ==== Proof.Spec.lean ====
import Idealize.ShloMosaic.PureOps.Ideal
import Idealize.ShloMosaic.PureOps.Ideal.Laws
import Idealize.ShloMosaic.Lib.ValueIdx
import Mathlib.Algebra.BigOperators.Fin
import Mathlib.Data.EReal.Operations

noncomputable section

open scoped BigOperators

namespace Cert.Spec

open Idealize.ShloMosaic Idealize.ShloMosaic.ValueIdx

abbrev SA : Shape := ⟨2, ![8192, 256]⟩

abbrev blockRow (i : Fin 8) (q : Fin 1024) : Fin 8192 := ⟨1024 * i.val + q.val, by have := i.isLt; have := q.isLt; omega⟩

def sqNorm (A : FVec Ideal SA .f32) (r : Fin 8192) : EReal := ∑ k : Fin 256, A (ix2 r k) * A (ix2 r k)

def inner (A B : FVec Ideal SA .f32) (r c : Fin 8192) : EReal := ∑ k : Fin 256, A (ix2 r k) * B (ix2 c k)

/-- The kernel value of row r of A against row c of B: exp (−sqrt (max (|A_r|² + |B_c|² − 2⟨A_r, B_c⟩) ε) / 512). -/
def entry (A B : FVec Ideal SA .f32) (r c : Fin 8192) : EReal :=
  Ideal.exp (Ideal.div
    (0 - Ideal.sqrt (max (sqNorm A r + sqNorm B c - Ideal.ofBits .f32 0x40000000#32 * inner A B r c)
      (Ideal.ofBits .f32 0x0DA24260#32)))
    (Ideal.ofBits .f32 0x44000000#32))

def T (A B : FVec Ideal SA .f32) : EReal := ∑ r : Fin 8192, ∑ c : Fin 8192, entry A B r c

def blockT (A B : FVec Ideal SA .f32) (i j : Fin 8) : EReal :=
  ∑ q : Fin 1024, ∑ p : Fin 1024, entry A B (blockRow i q) (blockRow j p)

/-- The discrepancy: T(X,X)/N + T(Y,Y)/N − 2·T(X,Y)/N. -/
def mmd (X Y : FVec Ideal SA .f32) : EReal :=
  Ideal.div (T X X) (Ideal.ofBits .f32 0x4C800000#32) + Ideal.div (T Y Y) (Ideal.ofBits .f32 0x4C800000#32)
    - Ideal.ofBits .f32 0x40000000#32 * Ideal.div (T X Y) (Ideal.ofBits .f32 0x4C800000#32)

def blockEquiv : Fin 8 × Fin 1024 ≃ Fin 8192 where
  toFun p := blockRow p.1 p.2
  invFun r := (⟨r.val / 1024, by have := r.isLt; omega⟩, ⟨r.val % 1024, by omega⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv r := Fin.ext (by
    show 1024 * (r.val / 1024) + r.val % 1024 = r.val
    omega)

theorem sum_blockRow {M : Type*} [AddCommMonoid M] (f : Fin 8192 → M) :
    ∑ r : Fin 8192, f r = ∑ i : Fin 8, ∑ q : Fin 1024, f (blockRow i q) := by
  rw [← Equiv.sum_comp blockEquiv f, Fintype.sum_prod_type]
  rfl

/-- The total regroups into the 64 block sums: sums over the extended reals are sums in a commutative monoid. -/
theorem T_blocks (A B : FVec Ideal SA .f32) : T A B = ∑ i : Fin 8, ∑ j : Fin 8, blockT A B i j := by
  unfold T blockT

  rw [sum_blockRow]
  refine Finset.sum_congr rfl fun i _ => ?_
  conv_rhs => rw [Finset.sum_comm]
  refine Finset.sum_congr rfl fun q _ => ?_
  exact sum_blockRow (fun c => entry A B (blockRow i q) c)

theorem zero_sub_eq_neg (d : EReal) : (0 : EReal) - d = -d := zero_sub d

end Cert.Spec

end
-- ==== Proof.KI.Fin.lean ====
import proofs.«105459_j82652350644520_1_alg».proof.Proof.KI.Ends
import proofs.«105459_j82652350644520_1_alg».proof.Proof.Spec
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

/-- Each region's total, reshaped and divided by the number of pairs; the arguments are as launched at every boundary. -/
theorem Went1_v2 (c : Dev nD)
    (h0 : ∀ (V : (c : Dev nD) → (b : Ref sig .tc) → Buf (Elt Ideal) ((c : Thread nD τ).loc b)) (c : Dev nD), (dat0 (F := Ideal) V c).arrAt 2 cfg0.N
      = fun _ => Cert.Spec.T (V c (Pipeline.arrRef spec0 0)) (V c (Pipeline.arrRef spec0 1))) :
    (Went1 (F := Ideal) m c main_v2 : S_.Idx → EReal)
      = fun _ => Ideal.div (Cert.Spec.T (m ((c : Thread nD τ).loc main_arg0)) (m ((c : Thread nD τ).loc main_arg0)))
          (Ideal.ofBits .f32 0x4C800000#32) := by
  have e : (Wexit0 (F := Ideal) m c main_v0 : S1x1.Idx → EReal)
      = fun _ => Cert.Spec.T (m ((c : Thread nD τ).loc main_arg0)) (m ((c : Thread nD τ).loc main_arg0)) :=
    (hexitV0 m c).trans (h0 (Ventry0 m) c)
  show StableHlo.after hostOps1 _ (Proc.devRef .tc main_v2) = _
  after_results
  funext i
  show Ideal.div (shapeCast S_ (Wexit0 (F := Ideal) m c main_v0 : S1x1.Idx → EReal) shapeCasts_S1x1_S_ i)
    (Ideal.ofBits .f32 0x4C800000#32) = _
  rw [e]
  rfl

theorem Went2_v5 (c : Dev nD)
    (h1 : ∀ (V : (c : Dev nD) → (b : Ref sig .tc) → Buf (Elt Ideal) ((c : Thread nD τ).loc b)) (c : Dev nD), (dat1 (F := Ideal) V c).arrAt 2 cfg1.N
      = fun _ => Cert.Spec.T (V c (Pipeline.arrRef spec1 0)) (V c (Pipeline.arrRef spec1 1))) :
    (Went2 (F := Ideal) m c main_v5 : S_.Idx → EReal)
      = fun _ => Ideal.div (Cert.Spec.T (m ((c : Thread nD τ).loc main_arg1)) (m ((c : Thread nD τ).loc main_arg1)))
          (Ideal.ofBits .f32 0x4C800000#32) := by
  have a : Went1 (F := Ideal) m c main_arg1 = m ((c : Thread nD τ).loc main_arg1) :=
    Went1_launch m c main_arg1 (by decide) (by decide)
  have e : (Wexit1 (F := Ideal) m c main_v3 : S1x1.Idx → EReal)
      = fun _ => Cert.Spec.T (m ((c : Thread nD τ).loc main_arg1)) (m ((c : Thread nD τ).loc main_arg1)) := by
    refine (hexitV1 m c).trans ((h1 (Ventry1 m) c).trans ?_)
    show (fun _ => Cert.Spec.T (Went1 (F := Ideal) m c main_arg1) (Went1 (F := Ideal) m c main_arg1)) = _
    rw [a]
  show StableHlo.after hostOps2 _ (Proc.devRef .tc main_v5) = _
  after_results
  funext i
  show Ideal.div (shapeCast S_ (Wexit1 (F := Ideal) m c main_v3 : S1x1.Idx → EReal) shapeCasts_S1x1_S_ i)
    (Ideal.ofBits .f32 0x4C800000#32) = _
  rw [e]
  rfl

/-- The returned scalar: the three normalised totals combined as first plus second minus twice the third. -/
theorem Wend_result (c : Dev nD)
    (h0 : ∀ (V : (c : Dev nD) → (b : Ref sig .tc) → Buf (Elt Ideal) ((c : Thread nD τ).loc b)) (c : Dev nD), (dat0 (F := Ideal) V c).arrAt 2 cfg0.N
      = fun _ => Cert.Spec.T (V c (Pipeline.arrRef spec0 0)) (V c (Pipeline.arrRef spec0 1)))
    (h1 : ∀ (V : (c : Dev nD) → (b : Ref sig .tc) → Buf (Elt Ideal) ((c : Thread nD τ).loc b)) (c : Dev nD), (dat1 (F := Ideal) V c).arrAt 2 cfg1.N
      = fun _ => Cert.Spec.T (V c (Pipeline.arrRef spec1 0)) (V c (Pipeline.arrRef spec1 1)))
    (h2 : ∀ (V : (c : Dev nD) → (b : Ref sig .tc) → Buf (Elt Ideal) ((c : Thread nD τ).loc b)) (c : Dev nD), (dat2 (F := Ideal) V c).arrAt 2 cfg2.N
      = fun _ => Cert.Spec.T (V c (Pipeline.arrRef spec2 0)) (V c (Pipeline.arrRef spec2 1))) :
    Wend (F := Ideal) m c main_v11
      = fun _ => Cert.Spec.mmd (m ((c : Thread nD τ).loc main_arg0)) (m ((c : Thread nD τ).loc main_arg1)) := by
  have a0 : Went2 (F := Ideal) m c main_arg0 = m ((c : Thread nD τ).loc main_arg0) :=
    Went2_launch m c main_arg0 (by decide) (by decide) (by decide) (by decide)
  have a1 : Went2 (F := Ideal) m c main_arg1 = m ((c : Thread nD τ).loc main_arg1) :=
    Went2_launch m c main_arg1 (by decide) (by decide) (by decide) (by decide)
  have e2 : (Wexit2 (F := Ideal) m c main_v2 : S_.Idx → EReal)
      = fun _ => Ideal.div (Cert.Spec.T (m ((c : Thread nD τ).loc main_arg0)) (m ((c : Thread nD τ).loc main_arg0)))
          (Ideal.ofBits .f32 0x4C800000#32) :=
    (hrestV2 m c main_v2 (by decide)).trans <| (Went2_of m c main_v2 (by decide)).trans <|
      (hrestV1 m c main_v2 (by decide)).trans (Went1_v2 m c h0)
  have e5 : (Wexit2 (F := Ideal) m c main_v5 : S_.Idx → EReal)
      = fun _ => Ideal.div (Cert.Spec.T (m ((c : Thread nD τ).loc main_arg1)) (m ((c : Thread nD τ).loc main_arg1)))
          (Ideal.ofBits .f32 0x4C800000#32) :=
    (hrestV2 m c main_v5 (by decide)).trans (Went2_v5 m c h1)
  have e6 : (Wexit2 (F := Ideal) m c main_v6 : S1x1.Idx → EReal)
      = fun _ => Cert.Spec.T (m ((c : Thread nD τ).loc main_arg0)) (m ((c : Thread nD τ).loc main_arg1)) := by
    refine (hexitV2 m c).trans ((h2 (Ventry2 m) c).trans ?_)
    show (fun _ => Cert.Spec.T (Went2 (F := Ideal) m c main_arg0) (Went2 (F := Ideal) m c main_arg1)) = _
    rw [a0, a1]
  show StableHlo.after hostOps3 _ (Proc.devRef .tc main_v11) = _
  after_results
  show subf (F := Ideal) (s := S_) (φ := .f32)
      (addf (Wexit2 (F := Ideal) m c main_v2) (Wexit2 (F := Ideal) m c main_v5))
      (mulf (constant (F := Ideal) S_ .f32 0x40000000#32)
        (Host.divf (shapeCast S_ (Wexit2 (F := Ideal) m c main_v6 : S1x1.Idx → EReal) shapeCasts_S1x1_S_)
          (constant (F := Ideal) S_ .f32 0x4C800000#32))) = _
  rw [e2, e5, e6]
  rfl

end Cert.KernelIdeal.Hand

end
-- ==== Proof.KI.ValLib.lean ====
import proofs.«105459_j82652350644520_1_alg».proof.Proof.Spec
import Idealize.ShloMosaic.Lib.Pipeline.FrameBody
import Idealize.ShloMosaic.Lib.Pipeline.Value
import Mathlib.Algebra.BigOperators.Fin
import Mathlib.Algebra.BigOperators.Intervals

noncomputable section

open scoped BigOperators

namespace Cert.KernelIdeal.Hand

open Idealize.ShloMosaic

theorem zeros2 : (![0, 0] : Fin 2 → ℕ) = fun _ => 0 := by
  funext a
  match a with
  | ⟨0, _⟩ => rfl
  | ⟨1, _⟩ => rfl

theorem idx_1x1_eq (i j : (⟨2, ![1, 1]⟩ : Shape).Idx) : i = j := by
  funext a
  apply Fin.ext
  match a with
  | ⟨0, _⟩ =>
    have h1 : (i 0).val < 1 := (i 0).isLt
    have h2 : (j 0).val < 1 := (j 0).isLt
    show (i 0).val = (j 0).val
    omega
  | ⟨1, _⟩ =>
    have h1 : (i 1).val < 1 := (i 1).isLt
    have h2 : (j 1).val < 1 := (j 1).isLt
    show (i 1).val = (j 1).val
    omega

/-- A last store through the whole buffer decides what the buffer reads. -/
theorem read_writes_cons_whole {sig : RefSig} {κ : Kind} {sp : Space} {S : Shape} {e : EltTy} {Val : EltTy → Type}
    [∀ e, Nonempty (Val e)] (v : View sig κ sp S e) (f : v.ty.Contents Val) {off : Fin S.rank → ℕ}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _
      (fun y => ⟨_, List.mem_cons_self, View.mem_set_unit_zero h inb y⟩)).trans
    (View.canon_cons_unit_zero h inb w L)

/-- What trip m adds at row block ib, and what grid point m adds: a block sum, a row block's total (nothing past the eighth). -/
def tripTerm (A B : FVec Ideal Cert.Spec.SA .f32) (ib : Fin 8) (m : ℕ) : EReal :=
  if h : m < 8 then Cert.Spec.blockT A B ib ⟨m, h⟩ else 0

theorem tripTerm_of_lt (A B : FVec Ideal Cert.Spec.SA .f32) (ib : Fin 8) (m : ℕ) (h : m < 8) :
    tripTerm A B ib m = Cert.Spec.blockT A B ib ⟨m, h⟩ := dif_pos h

theorem sum_tripTerm (A B : FVec Ideal Cert.Spec.SA .f32) (ib : Fin 8) :
    ∑ m ∈ Finset.range 8, tripTerm A B ib m = ∑ j : Fin 8, Cert.Spec.blockT A B ib j := by
  rw [← Fin.sum_univ_eq_sum_range (fun m => tripTerm A B ib m) 8]
  exact Finset.sum_congr rfl fun j _ => tripTerm_of_lt A B ib j.val j.isLt

def pointTerm (A B : FVec Ideal Cert.Spec.SA .f32) (m : ℕ) : EReal :=
  if h : m < 8 then ∑ j : Fin 8, Cert.Spec.blockT A B ⟨m, h⟩ j else 0

theorem pointTerm_of_lt (A B : FVec Ideal Cert.Spec.SA .f32) (m : ℕ) (h : m < 8) :
    pointTerm A B m = ∑ j : Fin 8, Cert.Spec.blockT A B ⟨m, h⟩ j := dif_pos h

theorem sum_pointTerm (A B : FVec Ideal Cert.Spec.SA .f32) :
    ∑ m ∈ Finset.range 8, pointTerm A B m = Cert.Spec.T A B := by
  rw [Cert.Spec.T_blocks, ← Fin.sum_univ_eq_sum_range (fun m => pointTerm A B m) 8]
  exact Finset.sum_congr rfl fun i _ => pointTerm_of_lt A B i.val i.isLt

end Cert.KernelIdeal.Hand

end
-- ==== Proof.KIPay.lean ====
import proofs.«105459_j82652350644520_1_alg».proof.Proof.Gen.KernelIdeal.Skeleton
import proofs.«105459_j82652350644520_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayValue

open Cert.KernelIdeal Cert.KernelIdeal.Gen Idealize.ShloMosaic Idealize.SL.Sem Idealize.ShloMosaic.ValueIdx

section Layout
variable {α : Type}

theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (q : Fin a) :
    multiReduction .add [1] ⟨1, ![a]⟩ src 0x00000000#32 h hφ hacc (ix1 q) = ∑ k : Fin b, src (ix2 q k) := by
  refine (Ideal.multiReduction_add_single src 0x00000000#32 h hφ hacc (ix1 q)).trans ?_
  refine Finset.sum_congr rfl fun k _ => congrArg src ?_
  funext d
  refine Fin.ext ?_
  match d with
  | ⟨0, _⟩ => rfl
  | ⟨1, _⟩ => rfl

theorem sum_axis0_col_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ q : Fin a, src (ix2 q u) := by
  refine (Ideal.multiReduction_add_single src 0x00000000#32 h hφ hacc (ix1 u)).trans ?_
  refine Finset.sum_congr rfl fun q _ => congrArg src ?_
  funext d
  refine Fin.ext ?_
  match d with
  | ⟨0, _⟩ => rfl
  | ⟨1, _⟩ => rfl

theorem lhs_gram_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_gram_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_gram_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_gram_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The product contracted over the columns of both operands, at (q, p): the inner product of row q with row p. -/
theorem gram_apply (l r : FVec Ideal S1024x256 .bf16) (q p : Fin 1024) :
    matmul dot_S1024x256_S1024x256_S1024x1024_1_1_0_0_n_n none l r (constant (F := Ideal) S1024x1024 .f32 0x00000000#32) (ix2 q p)
      = ∑ k : Fin 256, l (ix2 q k) * r (ix2 p k) := by
  refine (Ideal.matmul_constant_zero_apply dot_S1024x256_S1024x256_S1024x1024_1_1_0_0_n_n none l r (ix2 q p)).trans ?_
  rw [← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 q p) ((ValueIdx.contrEquiv1 dot_S1024x256_S1024x256_S1024x1024_1_1_0_0_n_n 256 rfl rfl).symm k) = ix2 q k := funext fun a => Fin.ext (by
    match a with
    | ⟨0, _⟩ => exact lhs_gram_0 _ _
    | ⟨1, _⟩ => exact (lhs_gram_1 _ _).trans hk)
  have er : dot_S1024x256_S1024x256_S1024x1024_1_1_0_0_n_n.rhsIdx (ix2 q p) ((ValueIdx.contrEquiv1 dot_S1024x256_S1024x256_S1024x1024_1_1_0_0_n_n 256 rfl rfl).symm k) = ix2 p k := funext fun a => Fin.ext (by
    match a with
    | ⟨0, _⟩ => exact rhs_gram_0 _ _
    | ⟨1, _⟩ => exact (rhs_gram_1 _ _).trans hk)
  rw [el, er]

def rowSq (v : FVec Ideal S1024x256 .f32) : FVec Ideal S1024 .f32 :=
  multiReduction (F := Ideal) .add [1] S1024 (mulf v v) 0x00000000#32 reduces_S1024x256_S1024 (.inl rfl) rfl

theorem rowSq_apply (v : FVec Ideal S1024x256 .f32) (q : Fin 1024) :
    rowSq v (ix1 q) = ∑ k : Fin 256, v (ix2 q k) * v (ix2 q k) :=
  sum_axis1_apply (mulf v v) reduces_S1024x256_S1024 (.inl rfl) rfl q

def gram (x y : FVec Ideal S1024x256 .f32) : FVec Ideal S1024x1024 .f32 :=
  matmul dot_S1024x256_S1024x256_S1024x1024_1_1_0_0_n_n none (truncf .bf16 x bitsLt_bf16_f32) (truncf .bf16 y bitsLt_bf16_f32)
    (constant (F := Ideal) S1024x1024 .f32 0x00000000#32)

def expMat (x y : FVec Ideal S1024x256 .f32) : FVec Ideal S1024x1024 .f32 :=
  exp (divf
    (subf (broadcast S1024x1024 (Scalar.ofBits (F := Ideal) .f32 0x00000000#32))
      (sqrt (maximumf
        (subf
          (addf
            (broadcastTo S1024x1024 (shapeCast S1024x1 (rowSq x) shapeCasts_S1024_S1024x1) broadcasts_S1024x1_S1024x1024)
            (broadcastTo S1024x1024 (shapeCast S1x1024 (rowSq y) shapeCasts_S1024_S1x1024) broadcasts_S1x1024_S1024x1024))
          (mulf (broadcast S1024x1024 (Scalar.ofBits (F := Ideal) .f32 0x40000000#32)) (gram x y)))
        (broadcast S1024x1024 (Scalar.ofBits (F := Ideal) .f32 0x0DA24260#32)))))
    (broadcast S1024x1024 (Scalar.ofBits (F := Ideal) .f32 0x44000000#32)))

def step (x y : FVec Ideal S1024x256 .f32) (a : FVec Ideal S1x1 .f32) : FVec Ideal S1x1 .f32 :=
  shapeCast S1x1
    (addf a
      (shapeCast S1x1
        (multiReduction (F := Ideal) .add [0] S1
          (shapeCast S1024x1
            (multiReduction (F := Ideal) .add [1] S1024 (expMat x y) 0x00000000#32 reduces_S1024x1024_S1024 (.inl rfl) rfl)
            shapeCasts_S1024_S1024x1)
          0x00000000#32 reduces_S1024x1_S1 (.inl rfl) rfl)
        shapeCasts_S1_S1x1))
    shapeCasts_S1x1_S1x1

def resetVal : FVec Ideal S1x1 .f32 :=
  shapeCast S1x1 (broadcast S1x1 (Scalar.ofBits (F := Ideal) .f32 0x00000000#32)) shapeCasts_S1x1_S1x1

theorem resetVal_eq : resetVal = fun _ => (0 : EReal) := by
  unfold resetVal
  refine (shapeCast_self _ shapeCasts_S1x1_S1x1).trans ?_
  funext u
  exact Ideal.ofBits_zero_f32

/-- One trip's square at (q, p) is the specification's kernel value of row q of block i of A against row p of block j of B. -/
theorem expMat_apply (A B : FVec Ideal Cert.Spec.SA .f32) (i j : Fin 8) (x y : FVec Ideal S1024x256 .f32)
    (hx : ∀ (q : Fin 1024) (k : Fin 256), x (ix2 q k) = A (ix2 (Cert.Spec.blockRow i q) k))
    (hy : ∀ (p : Fin 1024) (k : Fin 256), y (ix2 p k) = B (ix2 (Cert.Spec.blockRow j p) k))
    (q p : Fin 1024) :
    expMat x y (ix2 q p) = Cert.Spec.entry A B (Cert.Spec.blockRow i q) (Cert.Spec.blockRow j p) := by
  have h1 : broadcastTo S1024x1024 (shapeCast S1024x1 (rowSq x) shapeCasts_S1024_S1024x1) broadcasts_S1024x1_S1024x1024 (ix2 q p)
      = Cert.Spec.sqNorm A (Cert.Spec.blockRow i q) := by
    refine (broadcastTo_a1_ab_apply _ broadcasts_S1024x1_S1024x1024 q p).trans ?_
    refine (shapeCast_a_a1_apply _ shapeCasts_S1024_S1024x1 q 0).trans ?_
    refine (rowSq_apply x q).trans ?_
    exact Finset.sum_congr rfl fun k _ => by rw [hx q k]
  have h2 : broadcastTo S1024x1024 (shapeCast S1x1024 (rowSq y) shapeCasts_S1024_S1x1024) broadcasts_S1x1024_S1024x1024 (ix2 q p)
      = Cert.Spec.sqNorm B (Cert.Spec.blockRow j p) := by
    refine (broadcastTo_1b_ab_apply _ broadcasts_S1x1024_S1024x1024 q p).trans ?_
    refine (shapeCast_a_1a_apply _ shapeCasts_S1024_S1x1024 0 p).trans ?_
    refine (rowSq_apply y p).trans ?_
    exact Finset.sum_congr rfl fun k _ => by rw [hy p k]
  have h3 : gram x y (ix2 q p) = Cert.Spec.inner A B (Cert.Spec.blockRow i q) (Cert.Spec.blockRow j p) := by
    unfold gram
    refine (gram_apply _ _ q p).trans ?_
    exact Finset.sum_congr rfl fun k _ => by rw [truncf_apply, truncf_apply, hx q k, hy p k]
  unfold expMat Cert.Spec.entry
  show Ideal.exp (Ideal.div
      (Ideal.ofBits .f32 0x00000000#32 - Ideal.sqrt (max
        (broadcastTo S1024x1024 (shapeCast S1024x1 (rowSq x) shapeCasts_S1024_S1024x1) broadcasts_S1024x1_S1024x1024 (ix2 q p)
          + broadcastTo S1024x1024 (shapeCast S1x1024 (rowSq y) shapeCasts_S1024_S1x1024) broadcasts_S1x1024_S1024x1024 (ix2 q p)
          - Ideal.ofBits .f32 0x40000000#32 * gram x y (ix2 q p))
        (Ideal.ofBits .f32 0x0DA24260#32)))
      (Ideal.ofBits .f32 0x44000000#32)) = _
  rw [h1, h2, h3, Ideal.ofBits_zero_f32]

/-- One trip adds the block's double sum to the accumulator. -/
theorem step_eq (A B : FVec Ideal Cert.Spec.SA .f32) (i j : Fin 8) (x y : FVec Ideal S1024x256 .f32)
    (a : FVec Ideal S1x1 .f32)
    (hx : ∀ (q : Fin 1024) (k : Fin 256), x (ix2 q k) = A (ix2 (Cert.Spec.blockRow i q) k))
    (hy : ∀ (p : Fin 1024) (k : Fin 256), y (ix2 p k) = B (ix2 (Cert.Spec.blockRow j p) k)) :
    step x y a = fun u => a u + Cert.Spec.blockT A B i j := by
  funext u
  obtain ⟨u0, u1, rfl⟩ : ∃ (u0 u1 : Fin 1), u = ix2 u0 u1 := ⟨u 0, u 1, eq_ix2 u⟩
  unfold step
  refine (congrFun (shapeCast_self _ shapeCasts_S1x1_S1x1) (ix2 u0 u1)).trans ?_
  refine (addf_apply a _ (ix2 u0 u1)).trans ?_
  refine congrArg (a (ix2 u0 u1) + ·) ?_
  refine (shapeCast_a_1a_apply _ shapeCasts_S1_S1x1 u0 u1).trans ?_
  refine (sum_axis0_col_apply _ reduces_S1024x1_S1 (.inl rfl) rfl u1).trans ?_
  unfold Cert.Spec.blockT
  refine Finset.sum_congr rfl fun q _ => ?_
  refine (shapeCast_a_a1_apply _ shapeCasts_S1024_S1024x1 q u1).trans ?_
  refine (sum_axis1_apply _ reduces_S1024x1024_S1024 (.inl rfl) rfl q).trans ?_
  exact Finset.sum_congr rfl fun p _ => expMat_apply A B i j x y hx hy q p

/-- The kernel's two payloads are those stage terms: the reset value is zero, and one trip adds the block sum to the accumulator. -/
theorem pay1_eq0 : k0_pay1 (F := Ideal) = fun _ => (0 : EReal) := resetVal_eq

theorem pay2_eq0 (A B : FVec Ideal Cert.Spec.SA .f32) (i j : Fin 8) (x y : Vec Ideal S1024x256 .f32)
    (a : Vec Ideal S1x1 .f32)
    (hx : ∀ (q : Fin 1024) (k : Fin 256), x (ix2 q k) = A (ix2 (Cert.Spec.blockRow i q) k))
    (hy : ∀ (p : Fin 1024) (k : Fin 256), y (ix2 p k) = B (ix2 (Cert.Spec.blockRow j p) k)) :
    k0_pay2 (F := Ideal) x y a = fun u => a u + Cert.Spec.blockT A B i j :=
  step_eq A B i j x y a hx hy

end Cert.KernelIdeal.PayValue

end
-- ==== Proof.KI.RunVals.lean ====
import proofs.«105459_j82652350644520_1_alg».proof.Proof.KI.Runs
import proofs.«105459_j82652350644520_1_alg».proof.Proof.KI.ValLib
import proofs.«105459_j82652350644520_1_alg».proof.Proof.KIPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

section AnyInstance
variable {F : FTy → Type} [FloatOps F]

theorem trips8 : k0_t1_loop.trips = 8 := by decide +kernel

variable (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole)

/-- One trip stores one piece through the whole accumulator: the trip's arithmetic at the row block, the trip's chunk of the second array and the accumulator as found. -/
theorem tripPiece (𝒱 : Variants) (bd : Option 𝒱.V) (v3 : Vec F S1024x256 .f32) (X : BufTy.Contents (Elt F) arg2.view.ty)
    (k : Fin k0_t1_loop.trips) (f : BufTy.Contents (Elt F) arg4.view.ty) :
    tripL_k0_t1 (F := F) 𝒱 c bd i arg1 harg1 arg2 harg2 arg3 harg3 arg4 harg4 v3 X k f
      = [⟨(Rect.unit (s := S1x1) ![0, 0] S1x1.size inb_S1x1_S1x1_0_0),
          k0_pay2 v3 (View.readAt (Elt F) arg2.view (Rect.unit (s := S8192x256) (k0_off1 k) S1024x256.size (k0_off1_inb k)).toLoadRect X)
            (View.readAt (Elt F) arg4.view (Rect.unit (s := S1x1) ![0, 0] S1x1.size inb_S1x1_S1x1_0_0).toLoadRect f)⟩] := by
  unfold tripL_k0_t1 trip_k0_t1
  rfl

/-- Trip k's chunk is rows 1024 k … of the array. -/
theorem chunkIdx (k : Fin k0_t1_loop.trips) (hk : k.val < 8) (p : Fin 1024) (kk : Fin 256) :
    (Rect.unit (s := S8192x256) (k0_off1 k) S1024x256.size (k0_off1_inb k)).toLoadRect.idx (ix2 p kk)
      = ix2 (Cert.Spec.blockRow ⟨k.val, hk⟩ p) kk := by
  funext a
  refine Fin.ext ?_
  match a with
  | ⟨0, _⟩ =>
    show k0_off1 k 0 + 1 * p.val = 1024 * k.val + p.val
    rw [k0_off1_eq k]
    show 1024 * k.val + 1 * p.val = 1024 * k.val + p.val
    omega
  | ⟨1, _⟩ =>
    show k0_off1 k 1 + 1 * kk.val = kk.val
    rw [k0_off1_eq k]
    show 0 + 1 * kk.val = kk.val
    omega

variable (x0 : Vec F S1024x256 .f32) (x1 : Vec F S8192x256 .f32) (xs : Vec F S1x1 .f32)

/-- The pieces each run found: the eight trips' pieces from the accumulator as the loop is entered, after the reset's store at the first point; the result's block takes the accumulator as loaded after the loop. -/
theorem runMidPieces (h0 : ¬isFirst i) (h1 : ¬isLast i) :
    (runMid (F := F) c i arg1 harg1 arg2 harg2 arg3 harg3 arg4 harg4 h0 h1 x0 x1 xs).1 = pb_k0_t1 (F := F) Variants.none c none i arg1 harg1 arg2 harg2 arg3 harg3 arg4 harg4 (View.readAt (Elt F) arg1.view (Rect.unit (s := S1024x256) ![0, 0] S1024x256.size inb_S1024x256_S1024x256_0_0).toLoadRect (harg1.unread x0)) (harg2.unread x1) (harg4.unread xs) k0_t1_loop.trips := by
  unfold runMid
  rfl

theorem runLastAccPieces (h0 : ¬isFirst i) (h1 : isLast i) :
    (runLast (F := F) c i arg1 harg1 arg2 harg2 arg3 harg3 arg4 harg4 h0 h1 x0 x1 xs).2.1 = pb_k0_t1 (F := F) Variants.none c none i arg1 harg1 arg2 harg2 arg3 harg3 arg4 harg4 (View.readAt (Elt F) arg1.view (Rect.unit (s := S1024x256) ![0, 0] S1024x256.size inb_S1024x256_S1024x256_0_0).toLoadRect (harg1.unread x0)) (harg2.unread x1) (harg4.unread xs) k0_t1_loop.trips := by
  unfold runLast
  rfl

theorem runLastOutPieces (h0 : ¬isFirst i) (h1 : isLast i) :
    (runLast (F := F) c i arg1 harg1 arg2 harg2 arg3 harg3 arg4 harg4 h0 h1 x0 x1 xs).1
      = [⟨(Rect.unit (s := S1x1) ![0, 0] S1x1.size inb_S1x1_S1x1_0_0), View.readAt (Elt F) arg4.view (Rect.unit (s := S1x1) ![0, 0] S1x1.size inb_S1x1_S1x1_0_0).toLoadRect
            (arg4.view.writes (Elt F) (harg4.unread xs) (pb_k0_t1 (F := F) Variants.none c none i arg1 harg1 arg2 harg2 arg3 harg3 arg4 harg4 (View.readAt (Elt F) arg1.view (Rect.unit (s := S1024x256) ![0, 0] S1024x256.size inb_S1024x256_S1024x256_0_0).toLoadRect (harg1.unread x0)) (harg2.unread x1) (harg4.unread xs) k0_t1_loop.trips))⟩] := by
  unfold runLast
  dsimp only
  unfold runLast.sl.v12
  rfl

theorem runFirstPieces (h0 : isFirst i) (h1 : ¬isLast i) :
    (runFirst (F := F) c i arg1 harg1 arg2 harg2 arg3 harg3 arg4 harg4 h0 h1 x0 x1).1
      = (pb_k0_t1 (F := F) Variants.none c none i arg1 harg1 arg2 harg2 arg3 harg3 arg4 harg4 (View.readAt (Elt F) arg1.view (Rect.unit (s := S1024x256) ![0, 0] S1024x256.size inb_S1024x256_S1024x256_0_0).toLoadRect (harg1.unread x0)) (harg2.unread x1) (arg4.view.writes (Elt F) arg4.view.junk [⟨(Rect.unit (s := S1x1) ![0, 0] S1x1.size inb_S1x1_S1x1_0_0), k0_pay1⟩]) k0_t1_loop.trips)
        ++ [⟨(Rect.unit (s := S1x1) ![0, 0] S1x1.size inb_S1x1_S1x1_0_0), k0_pay1⟩] := by
  unfold runFirst
  dsimp only
  unfold runFirst.sl.HS_1
  rfl

end AnyInstance

/-- A load of the whole row block's buffer reads the block. -/
theorem rowBlockLoad (arg1 : Memref sig .tc .vmem S1024x256 .f32) (harg1 : arg1.IsWhole) (x0 : Vec Ideal S1024x256 .f32) :
    (View.readAt (Elt Ideal) arg1.view (Rect.unit (s := S1024x256) ![0, 0] S1024x256.size inb_S1024x256_S1024x256_0_0).toLoadRect (harg1.unread x0)) = x0 :=
  (View.readAt_eq_ld _ _ _).trans ((View.ld_unit_zero zeros2 _ _).trans (harg1.read_unread x0))

section Trips
variable (𝒱 : Variants) (c : Dev nD) (bd : Option 𝒱.V) (i : grid0.Coords) (arg1 : Memref sig .tc .vmem S1024x256 .f32) (harg1 : arg1.IsWhole) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole)
  (v3 : Vec Ideal S1024x256 .f32) (X : BufTy.Contents (Elt Ideal) arg2.view.ty) (G : BufTy.Contents (Elt Ideal) arg4.view.ty)

/-- After trip k the accumulator reads the trip's arithmetic at what it read before the trip. -/
theorem pbRead (k : Fin k0_t1_loop.trips) :
    arg4.view.read (Elt Ideal) (arg4.view.writes (Elt Ideal) G (pb_k0_t1 (F := Ideal) 𝒱 c bd i arg1 harg1 arg2 harg2 arg3 harg3 arg4 harg4 v3 X G (k.val + 1)))
      = k0_pay2 (F := Ideal) v3 (View.readAt (Elt Ideal) arg2.view (Rect.unit (s := S8192x256) (k0_off1 k) S1024x256.size (k0_off1_inb k)).toLoadRect X)
          (arg4.view.read (Elt Ideal) (arg4.view.writes (Elt Ideal) G (pb_k0_t1 (F := Ideal) 𝒱 c bd i arg1 harg1 arg2 harg2 arg3 harg3 arg4 harg4 v3 X G k.val))) := by
  rw [pb_k0_t1_succ, tripPiece, List.singleton_append]
  refine (read_writes_cons_whole arg4.view G zeros2 inb_S1x1_S1x1_0_0 _ _).trans ?_
  exact congrArg (k0_pay2 (F := Ideal) v3 _) ((View.readAt_eq_ld _ _ _).trans (View.ld_unit_zero zeros2 _ _))

/-- The pieces through trip k, with any earlier stores behind them, read as one value give the same: the last store decides. -/
theorem pbCanonApp (k : Fin k0_t1_loop.trips) (L' : List (View.Piece (Elt Ideal) S1x1 .f32)) :
    View.canon ((pb_k0_t1 (F := Ideal) 𝒱 c bd i arg1 harg1 arg2 harg2 arg3 harg3 arg4 harg4 v3 X G (k.val + 1)) ++ L')
      = arg4.view.read (Elt Ideal) (arg4.view.writes (Elt Ideal) G (pb_k0_t1 (F := Ideal) 𝒱 c bd i arg1 harg1 arg2 harg2 arg3 harg3 arg4 harg4 v3 X G (k.val + 1))) := by
  refine Eq.trans ?_ (pbRead 𝒱 c bd i arg1 harg1 arg2 harg2 arg3 harg3 arg4 harg4 v3 X G k).symm
  rw [pb_k0_t1_succ, tripPiece, List.singleton_append, List.cons_append]
  refine (View.canon_cons_unit_zero zeros2 inb_S1x1_S1x1_0_0 _ _).trans ?_
  exact congrArg (k0_pay2 (F := Ideal) v3 _) ((View.readAt_eq_ld _ _ _).trans (View.ld_unit_zero zeros2 _ _))

variable (A B : FVec Ideal Cert.Spec.SA .f32) (ib : Fin 8)
  (hx : ∀ (q : Fin 1024) (k : Fin 256), v3 (ix2 q k) = A (ix2 (Cert.Spec.blockRow ib q) k))
  (hX : ∀ (r : Fin 8192) (k : Fin 256), arg2.view.read (Elt Ideal) X (ix2 r k) = B (ix2 r k))
include hx hX

/-- With the row block being block ib of A and the second array B, n trips add the block sums of (ib, 0), …, (ib, n - 1). -/
theorem pbSum : ∀ n : ℕ, n ≤ 8 →
      arg4.view.read (Elt Ideal) (arg4.view.writes (Elt Ideal) G (pb_k0_t1 (F := Ideal) 𝒱 c bd i arg1 harg1 arg2 harg2 arg3 harg3 arg4 harg4 v3 X G n))
        = fun u => arg4.view.read (Elt Ideal) G u + ∑ m ∈ Finset.range n, tripTerm A B ib m := by
  intro n
  induction n with
  | zero =>
    intro _
    rw [pb_k0_t1.eq_1, View.writes_nil, Finset.range_zero, Finset.sum_empty]
    funext u
    exact (add_zero _).symm
  | succ n ih =>
    intro hn
    have hn8 : n < 8 := hn
    have hk : n < k0_t1_loop.trips := by rw [trips8]; exact hn8
    refine (pbRead 𝒱 c bd i arg1 harg1 arg2 harg2 arg3 harg3 arg4 harg4 v3 X G ⟨n, hk⟩).trans ?_
    rw [ih (Nat.le_of_succ_le hn)]
    refine (Cert.KernelIdeal.PayValue.pay2_eq0 A B ib ⟨n, hn8⟩ v3 _ _ hx (fun p kk => ?_)).trans ?_
    · show arg2.view.read (Elt Ideal) X ((Rect.unit (s := S8192x256) (k0_off1 ⟨n, hk⟩) S1024x256.size (k0_off1_inb ⟨n, hk⟩)).toLoadRect.idx (ix2 p kk)) = _
      rw [chunkIdx ⟨n, hk⟩ hn8 p kk]
      exact hX _ _
    · funext u
      show arg4.view.read (Elt Ideal) G u + (∑ m ∈ Finset.range n, tripTerm A B ib m) + Cert.Spec.blockT A B ib ⟨n, hn8⟩ = _
      rw [Finset.sum_range_succ, tripTerm_of_lt A B ib n hn8, add_assoc]

/-- All eight trips add the row block's total. -/
theorem pbTotal :
    arg4.view.read (Elt Ideal) (arg4.view.writes (Elt Ideal) G (pb_k0_t1 (F := Ideal) 𝒱 c bd i arg1 harg1 arg2 harg2 arg3 harg3 arg4 harg4 v3 X G 8))
      = fun u => arg4.view.read (Elt Ideal) G u + ∑ j : Fin 8, Cert.Spec.blockT A B ib j := by
  rw [pbSum 𝒱 c bd i arg1 harg1 arg2 harg2 arg3 harg3 arg4 harg4 v3 X G A B ib hx hX 8 (le_refl 8), sum_tripTerm]

/-- The same of the eight trips' pieces read as one value, over any earlier stores. -/
theorem loopValApp (L' : List (View.Piece (Elt Ideal) S1x1 .f32)) :
    View.canon ((pb_k0_t1 (F := Ideal) 𝒱 c bd i arg1 harg1 arg2 harg2 arg3 harg3 arg4 harg4 v3 X G 8) ++ L') = fun u => arg4.view.read (Elt Ideal) G u + ∑ j : Fin 8, Cert.Spec.blockT A B ib j :=
  (pbCanonApp 𝒱 c bd i arg1 harg1 arg2 harg2 arg3 harg3 arg4 harg4 v3 X G ⟨7, by rw [trips8]; decide⟩ L').trans (pbTotal 𝒱 c bd i arg1 harg1 arg2 harg2 arg3 harg3 arg4 harg4 v3 X G A B ib hx hX)

theorem loopVal :
    View.canon (pb_k0_t1 (F := Ideal) 𝒱 c bd i arg1 harg1 arg2 harg2 arg3 harg3 arg4 harg4 v3 X G 8) = fun u => arg4.view.read (Elt Ideal) G u + ∑ j : Fin 8, Cert.Spec.blockT A B ib j :=
  (congrArg View.canon (List.append_nil _).symm).trans (loopValApp 𝒱 c bd i arg1 harg1 arg2 harg2 arg3 harg3 arg4 harg4 v3 X G A B ib hx hX [])

end Trips

section Runs
variable (A B : FVec Ideal Cert.Spec.SA .f32) (ib : Fin 8) (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole)
  (x0 : Vec Ideal S1024x256 .f32) (x1 : Vec Ideal S8192x256 .f32) (xs : Vec Ideal S1x1 .f32)
  (hx : ∀ (q : Fin 1024) (k : Fin 256), x0 (ix2 q k) = A (ix2 (Cert.Spec.blockRow ib q) k))
    (hB : ∀ (r : Fin 8192) (k : Fin 256), x1 (ix2 r k) = B (ix2 r k))
include hx hB

/-- A middle point and the last add the row block's total to the accumulator; the result's block takes the same value; the first point starts from the reset value zero. -/
theorem accMidVal (h0 : ¬isFirst i) (h1 : ¬isLast i) :
    accMid (F := Ideal) c i arg1 harg1 arg2 harg2 arg3 harg3 arg4 harg4 h0 h1 x0 x1 xs = fun u => xs u + ∑ j : Fin 8, Cert.Spec.blockT A B ib j := by
  unfold accMid
  rw [runMidPieces, rowBlockLoad, trips8]
  refine (loopVal Variants.none c none i arg1 harg1 arg2 harg2 arg3 harg3 arg4 harg4 x0 (harg2.unread x1) (harg4.unread xs) A B ib hx
    (fun r k => by rw [harg2.read_unread]; exact hB r k)).trans ?_
  rw [harg4.read_unread]

theorem accLastVal (h0 : ¬isFirst i) (h1 : isLast i) :
    accLast (F := Ideal) c i arg1 harg1 arg2 harg2 arg3 harg3 arg4 harg4 h0 h1 x0 x1 xs = fun u => xs u + ∑ j : Fin 8, Cert.Spec.blockT A B ib j := by
  unfold accLast
  rw [runLastAccPieces, rowBlockLoad, trips8]
  refine (loopVal Variants.none c none i arg1 harg1 arg2 harg2 arg3 harg3 arg4 harg4 x0 (harg2.unread x1) (harg4.unread xs) A B ib hx
    (fun r k => by rw [harg2.read_unread]; exact hB r k)).trans ?_
  rw [harg4.read_unread]

theorem outLastVal (h0 : ¬isFirst i) (h1 : isLast i) :
    outLast (F := Ideal) c i arg1 harg1 arg2 harg2 arg3 harg3 arg4 harg4 h0 h1 x0 x1 xs = fun u => xs u + ∑ j : Fin 8, Cert.Spec.blockT A B ib j := by
  unfold outLast
  rw [runLastOutPieces, rowBlockLoad, trips8]
  refine (View.canon_unit_zero zeros2 inb_S1x1_S1x1_0_0 _).trans ?_
  refine ((View.readAt_eq_ld _ _ _).trans (View.ld_unit_zero zeros2 _ _)).trans ?_
  refine (pbTotal Variants.none c none i arg1 harg1 arg2 harg2 arg3 harg3 arg4 harg4 x0 (harg2.unread x1) (harg4.unread xs) A B ib hx
    (fun r k => by rw [harg2.read_unread]; exact hB r k)).trans ?_
  rw [harg4.read_unread]

omit xs in
theorem accFirstVal (h0 : isFirst i) (h1 : ¬isLast i) :
    accFirst (F := Ideal) c i arg1 harg1 arg2 harg2 arg3 harg3 arg4 harg4 h0 h1 x0 x1 = fun _ => ∑ j : Fin 8, Cert.Spec.blockT A B ib j := by
  unfold accFirst
  rw [runFirstPieces, rowBlockLoad, trips8]
  refine (loopValApp Variants.none c none i arg1 harg1 arg2 harg2 arg3 harg3 arg4 harg4 x0 (harg2.unread x1) _ A B ib hx
    (fun r k => by rw [harg2.read_unread]; exact hB r k) _).trans ?_
  rw [read_writes_cons_whole arg4.view arg4.view.junk zeros2 inb_S1x1_S1x1_0_0 _ [],
    Cert.KernelIdeal.PayValue.pay1_eq0]
  funext u
  exact zero_add _

end Runs

section GridVals
variable (c : Dev nD) (b1 : Fin grid0.N → Memref sig .tc .vmem S1024x256 .f32) (hb1 : ∀ t, (b1 t).IsWhole)
  (b2 : Fin grid0.N → Memref sig .tc .vmem S8192x256 .f32) (hb2 : ∀ t, (b2 t).IsWhole)
  (b3 : Fin grid0.N → Memref sig .tc .vmem S1x1 .f32) (hb3 : ∀ t, (b3 t).IsWhole)
  (a4 : Memref sig .tc .vmem S1x1 .f32) (ha4 : a4.IsWhole)
  (X0 : Fin grid0.N → Vec Ideal S1024x256 .f32) (X1 : Fin grid0.N → Vec Ideal S8192x256 .f32) (junk : Vec Ideal S1x1 .f32)
  (A B : FVec Ideal Cert.Spec.SA .f32)
  (hx : ∀ (t : Fin grid0.N) (q : Fin 1024) (k : Fin 256), X0 t (ix2 q k) = A (ix2 (Cert.Spec.blockRow ⟨t.val, fin_lt t⟩ q) k))
  (hB : ∀ (t : Fin grid0.N) (r : Fin 8192) (k : Fin 256), X1 t (ix2 r k) = B (ix2 r k))
include hx hB

/-- With the first window's block at point t being row block t of A and the second's being B: one more point adds its row block's total to the accumulator, and at the last point the result's block takes the accumulator's new value. -/
theorem stepAt (n : ℕ) (hn : n + 1 < grid0.N) :
    (outsAt c b1 hb1 b2 hb2 b3 hb3 a4 ha4 X0 X1 junk (n + 1) hn).2 = (fun u => (outsAt c b1 hb1 b2 hb2 b3 hb3 a4 ha4 X0 X1 junk n (Nat.lt_of_succ_lt hn)).2 u + pointTerm A B (n + 1))
      ∧ (n + 1 = 7 → (outsAt c b1 hb1 b2 hb2 b3 hb3 a4 ha4 X0 X1 junk (n + 1) hn).1 = (outsAt c b1 hb1 b2 hb2 b3 hb3 a4 ha4 X0 X1 junk (n + 1) hn).2) := by
  have h8 : n + 1 < 8 := fin_lt ⟨n + 1, hn⟩
  rw [outsAt.eq_2]
  by_cases h7 : n + 1 = 7
  · rw [dif_pos h7]
    dsimp only
    have eA := accLastVal A B ⟨n + 1, h8⟩ c (grid0.coords ⟨n + 1, hn⟩) (b1 ⟨n + 1, hn⟩) (hb1 ⟨n + 1, hn⟩) (b2 ⟨n + 1, hn⟩) (hb2 ⟨n + 1, hn⟩) (b3 ⟨n + 1, hn⟩) (hb3 ⟨n + 1, hn⟩) a4 ha4 (X0 ⟨n + 1, hn⟩) (X1 ⟨n + 1, hn⟩) (outsAt c b1 hb1 b2 hb2 b3 hb3 a4 ha4 X0 X1 junk n (Nat.lt_of_succ_lt hn)).2 (hx ⟨n + 1, hn⟩) (hB ⟨n + 1, hn⟩)
      (notFirst_of_pos ⟨n + 1, hn⟩ (Nat.succ_ne_zero n)) (isLast_of_eq ⟨n + 1, hn⟩ h7)
    have eO := outLastVal A B ⟨n + 1, h8⟩ c (grid0.coords ⟨n + 1, hn⟩) (b1 ⟨n + 1, hn⟩) (hb1 ⟨n + 1, hn⟩) (b2 ⟨n + 1, hn⟩) (hb2 ⟨n + 1, hn⟩) (b3 ⟨n + 1, hn⟩) (hb3 ⟨n + 1, hn⟩) a4 ha4 (X0 ⟨n + 1, hn⟩) (X1 ⟨n + 1, hn⟩) (outsAt c b1 hb1 b2 hb2 b3 hb3 a4 ha4 X0 X1 junk n (Nat.lt_of_succ_lt hn)).2 (hx ⟨n + 1, hn⟩) (hB ⟨n + 1, hn⟩)
      (notFirst_of_pos ⟨n + 1, hn⟩ (Nat.succ_ne_zero n)) (isLast_of_eq ⟨n + 1, hn⟩ h7)
    refine ⟨eA.trans ?_, fun _ => eO.trans eA.symm⟩
    rw [pointTerm_of_lt _ _ (n + 1) h8]
  · rw [dif_neg h7]
    dsimp only
    have eA := accMidVal A B ⟨n + 1, h8⟩ c (grid0.coords ⟨n + 1, hn⟩) (b1 ⟨n + 1, hn⟩) (hb1 ⟨n + 1, hn⟩) (b2 ⟨n + 1, hn⟩) (hb2 ⟨n + 1, hn⟩) (b3 ⟨n + 1, hn⟩) (hb3 ⟨n + 1, hn⟩) a4 ha4 (X0 ⟨n + 1, hn⟩) (X1 ⟨n + 1, hn⟩) (outsAt c b1 hb1 b2 hb2 b3 hb3 a4 ha4 X0 X1 junk n (Nat.lt_of_succ_lt hn)).2 (hx ⟨n + 1, hn⟩) (hB ⟨n + 1, hn⟩)
      (notFirst_of_pos ⟨n + 1, hn⟩ (Nat.succ_ne_zero n)) (notLast_of_ne ⟨n + 1, hn⟩ h7)
    refine ⟨eA.trans ?_, fun h => absurd h h7⟩
    rw [pointTerm_of_lt _ _ (n + 1) h8]

/-- After point n the accumulator holds the totals of row blocks 0..n. -/
theorem accAt : ∀ (n : ℕ) (hn : n < grid0.N),
    (outsAt c b1 hb1 b2 hb2 b3 hb3 a4 ha4 X0 X1 junk n hn).2 = fun _ => ∑ m ∈ Finset.range (n + 1), pointTerm A B m := by
  intro n
  induction n with
  | zero =>
    intro hn
    have h8 : (0 : ℕ) < 8 := by decide
    rw [outsAt.eq_1]
    dsimp only
    refine (accFirstVal A B ⟨0, h8⟩ c (grid0.coords ⟨0, hn⟩) (b1 ⟨0, hn⟩) (hb1 ⟨0, hn⟩) (b2 ⟨0, hn⟩) (hb2 ⟨0, hn⟩) (b3 ⟨0, hn⟩) (hb3 ⟨0, hn⟩) a4 ha4 (X0 ⟨0, hn⟩) (X1 ⟨0, hn⟩) (hx ⟨0, hn⟩) (hB ⟨0, hn⟩)
      (isFirst_of_eq ⟨0, hn⟩ rfl) (notLast_of_ne ⟨0, hn⟩ (by show (0 : ℕ) ≠ 7; decide))).trans ?_
    rw [Finset.sum_range_one, pointTerm_of_lt _ _ 0 h8]
  | succ n ih =>
    intro hn
    rw [(stepAt c b1 hb1 b2 hb2 b3 hb3 a4 ha4 X0 X1 junk A B hx hB n hn).1, ih (Nat.lt_of_succ_lt hn)]
    funext u
    show (∑ m ∈ Finset.range (n + 1), pointTerm A B m) + pointTerm A B (n + 1) = _
    rw [Finset.sum_range_succ _ (n + 1)]

/-- At the last point the result's block holds the total over all pairs of rows. -/
theorem outsAt_out (hn : 7 < grid0.N) : (outsAt c b1 hb1 b2 hb2 b3 hb3 a4 ha4 X0 X1 junk 7 hn).1 = fun _ => Cert.Spec.T A B := by
  refine ((stepAt c b1 hb1 b2 hb2 b3 hb3 a4 ha4 X0 X1 junk A B hx hB 6 hn).2 rfl).trans ?_
  refine (accAt c b1 hb1 b2 hb2 b3 hb3 a4 ha4 X0 X1 junk A B hx hB 7 hn).trans ?_
  funext u
  exact sum_pointTerm A B

end GridVals

end Cert.KernelIdeal.Hand

end
-- ==== Proof.KI.Val0.lean ====
import proofs.«105459_j82652350644520_1_alg».proof.Proof.KI.Dat0
import proofs.«105459_j82652350644520_1_alg».proof.Proof.KI.RunVals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

variable (V : (c : Dev nD) → (b : Ref sig .tc) → Buf (Elt Ideal) ((c : Thread nD τ).loc b))

/-- The first window's array and the second's, as the region finds them. -/
abbrev arrA0 (c : Dev nD) : FVec Ideal Cert.Spec.SA .f32 := V c (Pipeline.arrRef spec0 0)
abbrev arrB0 (c : Dev nD) : FVec Ideal Cert.Spec.SA .f32 := V c (Pipeline.arrRef spec0 1)

theorem idxFacts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first window's block at point t is row block t of its array; the second window's block is its whole array. -/
theorem blockA0 (c : Dev nD) (t : Fin cfg0.N) (q : Fin 1024) (k : Fin 256) :
    iblk0 V c 0 t (ix2 q k) = arrA0 V c (ix2 (Cert.Spec.blockRow ⟨t.val, fin_lt t⟩ q) k) := by
  obtain ⟨e0, e1, -⟩ := idxFacts0 t
  show V c (Pipeline.arrRef spec0 0) (((cfg0.win 0).blk t).view.emb (ix2 q k))
    = V c (Pipeline.arrRef spec0 0) (ix2 (Cert.Spec.blockRow ⟨t.val, fin_lt t⟩ q) k)
  refine congrArg _ (funext fun a => Fin.ext ?_)
  match a with
  | ⟨0, _⟩ =>
    show win0_0.index t (0 : Fin 2) * 1024 + 1 * q.val = 1024 * t.val + q.val
    omega
  | ⟨1, _⟩ =>
    show win0_0.index t (1 : Fin 2) * 256 + 1 * k.val = k.val
    omega

theorem blockB0 (c : Dev nD) (t : Fin cfg0.N) (r : Fin 8192) (k : Fin 256) :
    iblk0 V c 1 t (ix2 r k) = arrB0 V c (ix2 r k) := by
  obtain ⟨-, -, e2, e3, -⟩ := idxFacts0 t
  show V c (Pipeline.arrRef spec0 1) (((cfg0.win 1).blk t).view.emb (ix2 r k))
    = V c (Pipeline.arrRef spec0 1) (ix2 r k)
  refine congrArg _ (funext fun a => Fin.ext ?_)
  match a with
  | ⟨0, _⟩ =>
    show win0_1.index t (0 : Fin 2) * 8192 + 1 * r.val = r.val
    omega
  | ⟨1, _⟩ =>
    show win0_1.index t (1 : Fin 2) * 256 + 1 * k.val = k.val
    omega

/-- The result array after the region is the total over all pairs of rows: only the last point's block is written back, and it is the whole 1x1 array. -/
theorem outFinal0 (c : Dev nD) :
    (dat0 (F := Ideal) V c).arrAt 2 cfg0.N = fun _ => Cert.Spec.T (V c (Pipeline.arrRef spec0 0)) (V c (Pipeline.arrRef spec0 1)) := by
  have h7N : 7 < cfg0.N := by rw [show cfg0.N = 8 from N_0]; decide
  refine (dat0 (F := Ideal) V c).arrAt_eq_of_cover 2 _ (fun t hf => ?_) (fun i => ?_)
  · have h7 : t.val = 7 := by
      have h := (flush0_2 t).mp hf
      have h8 := fin_lt t
      omega
    obtain ⟨tv, ht⟩ := t
    subst h7
    show (cfg0.win 2).cut (grid0.coords ⟨7, ht⟩) ((dat0 (F := Ideal) V c).after 2 ⟨7, ht⟩) = _
    rw [after0_2, outsAt0, outsAt_out c ms0_0 hs0_0 ms0_1 hs0_1 ms0_2 hs0_2 acc0 (Memref.isWhole_whole _) (iblk0 V c 0) (iblk0 V c 1) _
      (arrA0 V c) (arrB0 V c) (blockA0 V c) (blockB0 V c) ht]
    rfl
  · refine ⟨⟨7, h7N⟩, (flush0_2 ⟨7, h7N⟩).mpr rfl, ?_⟩
    have hm := ((cfg0.win 2).blk ⟨7, h7N⟩).view.emb_mem_set (ix2 (0 : Fin 1) (0 : Fin 1))
    rwa [← idx_1x1_eq i (((cfg0.win 2).blk ⟨7, h7N⟩).view.emb (ix2 (0 : Fin 1) (0 : Fin 1)))] at hm

end Cert.KernelIdeal.Hand

end
-- ==== Proof.KI.Val1.lean ====
import proofs.«105459_j82652350644520_1_alg».proof.Proof.KI.Dat1
import proofs.«105459_j82652350644520_1_alg».proof.Proof.KI.RunVals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

variable (V : (c : Dev nD) → (b : Ref sig .tc) → Buf (Elt Ideal) ((c : Thread nD τ).loc b))

/-- The first window's array and the second's, as the region finds them. -/
abbrev arrA1 (c : Dev nD) : FVec Ideal Cert.Spec.SA .f32 := V c (Pipeline.arrRef spec1 0)
abbrev arrB1 (c : Dev nD) : FVec Ideal Cert.Spec.SA .f32 := V c (Pipeline.arrRef spec1 1)

theorem idxFacts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The first window's block at point t is row block t of its array; the second window's block is its whole array. -/
theorem blockA1 (c : Dev nD) (t : Fin cfg1.N) (q : Fin 1024) (k : Fin 256) :
    iblk1 V c 0 t (ix2 q k) = arrA1 V c (ix2 (Cert.Spec.blockRow ⟨t.val, fin_lt t⟩ q) k) := by
  obtain ⟨e0, e1, -⟩ := idxFacts1 t
  show V c (Pipeline.arrRef spec1 0) (((cfg1.win 0).blk t).view.emb (ix2 q k))
    = V c (Pipeline.arrRef spec1 0) (ix2 (Cert.Spec.blockRow ⟨t.val, fin_lt t⟩ q) k)
  refine congrArg _ (funext fun a => Fin.ext ?_)
  match a with
  | ⟨0, _⟩ =>
    show win1_0.index t (0 : Fin 2) * 1024 + 1 * q.val = 1024 * t.val + q.val
    omega
  | ⟨1, _⟩ =>
    show win1_0.index t (1 : Fin 2) * 256 + 1 * k.val = k.val
    omega

theorem blockB1 (c : Dev nD) (t : Fin cfg1.N) (r : Fin 8192) (k : Fin 256) :
    iblk1 V c 1 t (ix2 r k) = arrB1 V c (ix2 r k) := by
  obtain ⟨-, -, e2, e3, -⟩ := idxFacts1 t
  show V c (Pipeline.arrRef spec1 1) (((cfg1.win 1).blk t).view.emb (ix2 r k))
    = V c (Pipeline.arrRef spec1 1) (ix2 r k)
  refine congrArg _ (funext fun a => Fin.ext ?_)
  match a with
  | ⟨0, _⟩ =>
    show win1_1.index t (0 : Fin 2) * 8192 + 1 * r.val = r.val
    omega
  | ⟨1, _⟩ =>
    show win1_1.index t (1 : Fin 2) * 256 + 1 * k.val = k.val
    omega

/-- The result array after the region is the total over all pairs of rows: only the last point's block is written back, and it is the whole 1x1 array. -/
theorem outFinal1 (c : Dev nD) :
    (dat1 (F := Ideal) V c).arrAt 2 cfg1.N = fun _ => Cert.Spec.T (V c (Pipeline.arrRef spec1 0)) (V c (Pipeline.arrRef spec1 1)) := by
  have h7N : 7 < cfg1.N := by rw [show cfg1.N = 8 from N_1]; decide
  refine (dat1 (F := Ideal) V c).arrAt_eq_of_cover 2 _ (fun t hf => ?_) (fun i => ?_)
  · have h7 : t.val = 7 := by
      have h := (flush1_2 t).mp hf
      have h8 := fin_lt t
      omega
    obtain ⟨tv, ht⟩ := t
    subst h7
    show (cfg1.win 2).cut (grid1.coords ⟨7, ht⟩) ((dat1 (F := Ideal) V c).after 2 ⟨7, ht⟩) = _
    rw [after1_2, outsAt1, outsAt_out c ms1_0 hs1_0 ms1_1 hs1_1 ms1_2 hs1_2 acc1 (Memref.isWhole_whole _) (iblk1 V c 0) (iblk1 V c 1) _
      (arrA1 V c) (arrB1 V c) (blockA1 V c) (blockB1 V c) ht]
    rfl
  · refine ⟨⟨7, h7N⟩, (flush1_2 ⟨7, h7N⟩).mpr rfl, ?_⟩
    have hm := ((cfg1.win 2).blk ⟨7, h7N⟩).view.emb_mem_set (ix2 (0 : Fin 1) (0 : Fin 1))
    rwa [← idx_1x1_eq i (((cfg1.win 2).blk ⟨7, h7N⟩).view.emb (ix2 (0 : Fin 1) (0 : Fin 1)))] at hm

end Cert.KernelIdeal.Hand

end
-- ==== Proof.KI.Val2.lean ====
import proofs.«105459_j82652350644520_1_alg».proof.Proof.KI.Dat2
import proofs.«105459_j82652350644520_1_alg».proof.Proof.KI.RunVals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

variable (V : (c : Dev nD) → (b : Ref sig .tc) → Buf (Elt Ideal) ((c : Thread nD τ).loc b))

/-- The first window's array and the second's, as the region finds them. -/
abbrev arrA2 (c : Dev nD) : FVec Ideal Cert.Spec.SA .f32 := V c (Pipeline.arrRef spec2 0)
abbrev arrB2 (c : Dev nD) : FVec Ideal Cert.Spec.SA .f32 := V c (Pipeline.arrRef spec2 1)

theorem idxFacts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The first window's block at point t is row block t of its array; the second window's block is its whole array. -/
theorem blockA2 (c : Dev nD) (t : Fin cfg2.N) (q : Fin 1024) (k : Fin 256) :
    iblk2 V c 0 t (ix2 q k) = arrA2 V c (ix2 (Cert.Spec.blockRow ⟨t.val, fin_lt t⟩ q) k) := by
  obtain ⟨e0, e1, -⟩ := idxFacts2 t
  show V c (Pipeline.arrRef spec2 0) (((cfg2.win 0).blk t).view.emb (ix2 q k))
    = V c (Pipeline.arrRef spec2 0) (ix2 (Cert.Spec.blockRow ⟨t.val, fin_lt t⟩ q) k)
  refine congrArg _ (funext fun a => Fin.ext ?_)
  match a with
  | ⟨0, _⟩ =>
    show win2_0.index t (0 : Fin 2) * 1024 + 1 * q.val = 1024 * t.val + q.val
    omega
  | ⟨1, _⟩ =>
    show win2_0.index t (1 : Fin 2) * 256 + 1 * k.val = k.val
    omega

theorem blockB2 (c : Dev nD) (t : Fin cfg2.N) (r : Fin 8192) (k : Fin 256) :
    iblk2 V c 1 t (ix2 r k) = arrB2 V c (ix2 r k) := by
  obtain ⟨-, -, e2, e3, -⟩ := idxFacts2 t
  show V c (Pipeline.arrRef spec2 1) (((cfg2.win 1).blk t).view.emb (ix2 r k))
    = V c (Pipeline.arrRef spec2 1) (ix2 r k)
  refine congrArg _ (funext fun a => Fin.ext ?_)
  match a with
  | ⟨0, _⟩ =>
    show win2_1.index t (0 : Fin 2) * 8192 + 1 * r.val = r.val
    omega
  | ⟨1, _⟩ =>
    show win2_1.index t (1 : Fin 2) * 256 + 1 * k.val = k.val
    omega

/-- The result array after the region is the total over all pairs of rows: only the last point's block is written back, and it is the whole 1x1 array. -/
theorem outFinal2 (c : Dev nD) :
    (dat2 (F := Ideal) V c).arrAt 2 cfg2.N = fun _ => Cert.Spec.T (V c (Pipeline.arrRef spec2 0)) (V c (Pipeline.arrRef spec2 1)) := by
  have h7N : 7 < cfg2.N := by rw [show cfg2.N = 8 from N_2]; decide
  refine (dat2 (F := Ideal) V c).arrAt_eq_of_cover 2 _ (fun t hf => ?_) (fun i => ?_)
  · have h7 : t.val = 7 := by
      have h := (flush2_2 t).mp hf
      have h8 := fin_lt t
      omega
    obtain ⟨tv, ht⟩ := t
    subst h7
    show (cfg2.win 2).cut (grid2.coords ⟨7, ht⟩) ((dat2 (F := Ideal) V c).after 2 ⟨7, ht⟩) = _
    rw [after2_2, outsAt2, outsAt_out c ms2_0 hs2_0 ms2_1 hs2_1 ms2_2 hs2_2 acc2 (Memref.isWhole_whole _) (iblk2 V c 0) (iblk2 V c 1) _
      (arrA2 V c) (arrB2 V c) (blockA2 V c) (blockB2 V c) ht]
    rfl
  · refine ⟨⟨7, h7N⟩, (flush2_2 ⟨7, h7N⟩).mpr rfl, ?_⟩
    have hm := ((cfg2.win 2).blk ⟨7, h7N⟩).view.emb_mem_set (ix2 (0 : Fin 1) (0 : Fin 1))
    rwa [← idx_1x1_eq i (((cfg2.win 2).blk ⟨7, h7N⟩).view.emb (ix2 (0 : Fin 1) (0 : Fin 1)))] at hm

end Cert.KernelIdeal.Hand

end
-- ==== Proof.RefValue.lean ====
import proofs.«105459_j82652350644520_1_alg».proof.Proof.Gen.ReferenceIdeal.Run
import proofs.«105459_j82652350644520_1_alg».proof.Proof.Gen.ReferenceIdeal.Read
import proofs.«105459_j82652350644520_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The reference's kernel matrix of the pair (x0, x1) at (r, c) is the specification's entry. -/
theorem cross_entry (x0 x1 : (⟨S8192x256, .f32⟩ : BufTy).Contents (Elt Ideal)) (r c : Fin 8192) :
    Read.val_main_v45 (F := Ideal) x0 x1 (ix2 r c) = Cert.Spec.entry x0 x1 r c := by

  have e1 : ∀ k : Fin 256,
      Read.idx_main_v25 (Read.idx_main_v26 (Read.idx_main_v31 (ix2 r c))) k = ix2 r k := fun k =>
    funext fun a => Fin.ext (by match a with | ⟨0, _⟩ => rfl | ⟨1, _⟩ => rfl)
  have e2 : ∀ k : Fin 256,
      Read.idx_main_v28 (Read.idx_main_v29 (Read.idx_main_v30 (Read.idx_main_v32 (ix2 r c)))) k = ix2 c k := fun k =>
    funext fun a => Fin.ext (by match a with | ⟨0, _⟩ => rfl | ⟨1, _⟩ => rfl)
  have e3 : ∀ k : Fin 256, Read.lidx_main_v35 (ix2 r c) k = ix2 r k := fun k =>
    funext fun a => Fin.ext (by match a with | ⟨0, _⟩ => rfl | ⟨1, _⟩ => rfl)
  have e4 : ∀ k : Fin 256, Read.idx_main_v34 (Read.ridx_main_v35 (ix2 r c) k) = ix2 c k := fun k =>
    funext fun a => Fin.ext (by match a with | ⟨0, _⟩ => rfl | ⟨1, _⟩ => rfl)
  rw [Read.val_main_v45_apply, Read.val_main_v44_apply, Read.val_main_v42_apply, Read.val_main_v41_apply,
    Read.val_main_v40_apply, Read.val_main_v38_apply, Read.val_main_v33_apply, Read.val_main_v31_apply,
    Read.val_main_v26_apply, Read.val_main_v25_apply, Read.val_main_v32_apply, Read.val_main_v30_apply,
    Read.val_main_v29_apply, Read.val_main_v28_apply, Read.val_main_v37_apply, Read.val_main_v36_apply,
    Read.val_main_v35_apply, Read.val_main_v39_apply, Read.val_main_v43_apply, Read.val_main_cst_6_apply,
    Read.val_main_cst_7_apply, Read.val_main_cst_8_apply, Read.val_main_cst_9_apply, Read.val_main_cst_10_apply]
  simp only [Read.val_main_v24_apply, Read.val_main_v27_apply, Read.val_main_v34_apply, e1, e2, e3, e4,
    Ideal.hostUnary_exp_def, Ideal.hostDivf_def, Ideal.hostNegf_def, Ideal.negf_def, Ideal.hostUnary_sqrt_def,
    Ideal.maximumf_def, Ideal.subf_def, Ideal.addf_def, Ideal.mulf_def, Ideal.ofBits_def, Ideal.ofBits_zero_f32,
    zero_add]
  unfold Cert.Spec.entry Cert.Spec.sqNorm Cert.Spec.inner
  rw [Cert.Spec.zero_sub_eq_neg]

theorem cross_mean (x0 x1 : (⟨S8192x256, .f32⟩ : BufTy).Contents (Elt Ideal)) (i : S_.Idx) :
    Read.val_main_v47 (F := Ideal) x0 x1 i
      = Ideal.div (Cert.Spec.T x0 x1) (Ideal.ofBits .f32 0x4C800000#32) := by
  rw [Read.val_main_v47_apply, Read.val_main_v46_apply, Read.val_main_cst_11_apply, Read.val_main_cst_12_apply,
    sum_idx2]
  simp only [cross_entry, Ideal.hostDivf_def, Ideal.ofBits_def, Ideal.ofBits_zero_f32, zero_add]
  rfl

theorem self_mean0 (x : (⟨S8192x256, .f32⟩ : BufTy).Contents (Elt Ideal)) :
    Read.val_main_v23 (F := Ideal) x = Read.val_main_v47 (F := Ideal) x x := rfl

theorem self_mean1 (y : (⟨S8192x256, .f32⟩ : BufTy).Contents (Elt Ideal)) :
    Read.val_main_v71 (F := Ideal) y = Read.val_main_v47 (F := Ideal) y y := rfl

/-- The reference's result is the specified discrepancy; an array against itself is the pair at equal arguments. -/
theorem result_eq (x y : (⟨S8192x256, .f32⟩ : BufTy).Contents (Elt Ideal)) :
    Read.val_main_v74 (F := Ideal) x y = fun _ => Cert.Spec.mmd x y := by
  funext i
  rw [Read.val_main_v74_apply, Read.val_main_v72_apply, Read.val_main_v73_apply, Read.val_main_cst_20_apply,
    self_mean0, self_mean1]
  simp only [cross_mean, Ideal.subf_def, Ideal.addf_def, Ideal.mulf_def, Ideal.ofBits_def]
  rfl

theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v74)
          = (fun _ => Cert.Spec.mmd (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono
    (fun _ h c => ⟨(h c).1.trans ((Read.val_main_v74_eq _ _).trans (result_eq _ _)), (h c).2⟩)
    (Cert.ReferenceIdeal.Value.run (F := Ideal) m' ρ')

end Cert.ReferenceIdeal.RefValue

end
-- ==== Proof.lean ====
/- Two feature arrays X, Y : f32[8192, 256]. With T(A,B) = Σ_r Σ_c exp(−sqrt(max(|A_r|² + |B_c|² − 2⟨A_r, B_c⟩, ε)) / 512) and N = 8192²,
   both programs return T(X,X)/N + T(Y,Y)/N − 2·T(X,Y)/N. The reference sums each 8192×8192 matrix whole; the kernel's three
   pallas_calls run one body that adds the sums of 1024×1024 blocks into a 1x1 accumulator. Addition on the extended reals is
   commutative and associative, so the block sums regroup to the whole sum; the inputs' finiteness is not used. -/
import proofs.«105459_j82652350644520_1_alg».proof.Defs
import proofs.«105459_j82652350644520_1_alg».proof.Proof.Gen.Kernel
import proofs.«105459_j82652350644520_1_alg».proof.Proof.Gen.KernelIdeal
import proofs.«105459_j82652350644520_1_alg».proof.Proof.Gen.ReferenceIdeal
import proofs.«105459_j82652350644520_1_alg».proof.Proof.Gen.Pre_finite_inputs
import proofs.«105459_j82652350644520_1_alg».proof.Proof.K.Main
import proofs.«105459_j82652350644520_1_alg».proof.Proof.K.Ends
import proofs.«105459_j82652350644520_1_alg».proof.Proof.KI.Main
import proofs.«105459_j82652350644520_1_alg».proof.Proof.KI.Ends
import proofs.«105459_j82652350644520_1_alg».proof.Proof.KI.Fin
import proofs.«105459_j82652350644520_1_alg».proof.Proof.KI.Val0
import proofs.«105459_j82652350644520_1_alg».proof.Proof.KI.Val1
import proofs.«105459_j82652350644520_1_alg».proof.Proof.KI.Val2
import proofs.«105459_j82652350644520_1_alg».proof.Proof.RefValue
import Idealize.ShloMosaic.Adequacy
import Idealize.ShloMosaic.Init

noncomputable section

namespace Cert.Proof

open Idealize.ShloMosaic Idealize.ShloMosaic.TcCoe Idealize.SL.Sem

/-- Each program's run ends without a fault with both arguments as launched. -/
theorem frame_kernel : Cert.frame_Kernel := fun m ρ _ =>
  (θ_run (Cert.Kernel.defs (F := Bits)) _ _).mono (fun _ h c =>
    ⟨(h c _ (Cert.Kernel.Hand.mem_uc Cert.Kernel.main_arg0 (by decide))).trans (Cert.Kernel.Hand.Wend_arg0 m c),
     (h c _ (Cert.Kernel.Hand.mem_uc Cert.Kernel.main_arg1 (by decide))).trans (Cert.Kernel.Hand.Wend_arg1 m c)⟩)
    (Cert.Kernel.Hand.run_main (F := Bits) m ρ)

theorem frame_kernelIdeal : Cert.frame_KernelIdeal := fun m ρ _ =>
  (θ_run (Cert.KernelIdeal.defs (F := Ideal)) _ _).mono (fun _ h c =>
    ⟨(h c _ (Cert.KernelIdeal.Hand.mem_uc Cert.KernelIdeal.main_arg0 (by decide))).trans (Cert.KernelIdeal.Hand.Wend_arg0 m c),
     (h c _ (Cert.KernelIdeal.Hand.mem_uc Cert.KernelIdeal.main_arg1 (by decide))).trans (Cert.KernelIdeal.Hand.Wend_arg1 m c)⟩)
    (Cert.KernelIdeal.Hand.run_main (F := Ideal) m ρ)

theorem frame_reference : Cert.frame_ReferenceIdeal := fun m ρ _ =>
  (θ_run (Cert.ReferenceIdeal.defs (F := Ideal)) _ _).mono (fun _ h c => (h c).2)
    (Cert.ReferenceIdeal.RefValue.run_spec m ρ)

theorem preserves : Cert.preserves_Kernel_KernelIdeal := trivial

/-- From memories agreeing on the arguments both idealized programs end at the same number, `Cert.Spec.mmd` of the two arrays. -/
theorem algebraic : Cert.algebraic_KernelIdeal_ReferenceIdeal := by
  intro m ρ m' ρ' _ hagree
  refine ⟨fun c => fun _ => Cert.Spec.mmd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono (fun _ h c =>
      ⟨(h c _ (Cert.KernelIdeal.Hand.mem_uc Cert.KernelIdeal.main_v11 (by decide))).trans
          (Cert.KernelIdeal.Hand.Wend_result m c Cert.KernelIdeal.Hand.outFinal0 Cert.KernelIdeal.Hand.outFinal1 Cert.KernelIdeal.Hand.outFinal2),
       (h c _ (Cert.KernelIdeal.Hand.mem_uc Cert.KernelIdeal.main_arg0 (by decide))).trans (Cert.KernelIdeal.Hand.Wend_arg0 m c),
       (h c _ (Cert.KernelIdeal.Hand.mem_uc Cert.KernelIdeal.main_arg1 (by decide))).trans (Cert.KernelIdeal.Hand.Wend_arg1 m c)⟩)
      (Cert.KernelIdeal.Hand.run_main (F := Ideal) m ρ)
  · refine (θ_run (Cert.ReferenceIdeal.defs (F := Ideal)) _ _).mono (fun _ h c => ⟨?_, (h c).2.1, (h c).2.2⟩)
      (Cert.ReferenceIdeal.RefValue.run_spec m' ρ')
    rw [(h c).1, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
